-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S128x1 .f32) (main_arg11 : FVec F S1 .f32) (main_v33 : IVec S_ 1) : IVec S_ 1 :=
  let main_v34 : FVec F S128x1 .f32 := Host.absf main_arg10
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg7 : FVec F S128 .f32) (main_arg8 : FVec F S128x128 .f32) (main_arg9 : FVec F S128 .f32) (main_arg10 : FVec F S128x1 .f32) (main_arg11 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_v33

def fn {F : FTy → Type} [FloatOps F] (main_arg0 : FVec F S100000x64 .f32) (main_arg1 : IVec S1600000 32) (main_arg2 : IVec S1600000 32) (main_arg3 : IVec S100000 32) (main_arg4 : FVec F S64x128 .f32) (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg4
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_v13 main_v16
-- ==== Kernel.lean ====
abbrev S100000x64 : Shape := ⟨2, ![100000, 64]⟩
abbrev S1600000 : Shape := ⟨1, ![1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S1600000x1 : Shape := ⟨2, ![1600000, 1]⟩
abbrev S100000x1 : Shape := ⟨2, ![100000, 1]⟩
abbrev S100000x128 : Shape := ⟨2, ![100000, 128]⟩
abbrev S5000x64 : Shape := ⟨2, ![5000, 64]⟩
abbrev S5000x1 : Shape := ⟨2, ![5000, 1]⟩
abbrev S5000x128 : Shape := ⟨2, ![5000, 128]⟩
abbrev S1600000x128 : Shape := ⟨2, ![1600000, 128]⟩
abbrev S1x128 : Shape := ⟨2, ![1, 128]⟩
abbrev S1x1 : Shape := ⟨2, ![1, 1]⟩
abbrev S1000x1 : Shape := ⟨2, ![1000, 1]⟩
abbrev S1000x128 : Shape := ⟨2, ![1000, 128]⟩
abbrev S1024x128 : Shape := ⟨2, ![1024, 128]⟩
abbrev S1024x1 : Shape := ⟨2, ![1024, 1]⟩
abbrev S1x1024 : Shape := ⟨2, ![1, 1024]⟩
abbrev S1000x1024 : Shape := ⟨2, ![1000, 1024]⟩

abbrev nBuf : Space → Nat
  | .hbm => 77
  | .vmem => 41
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x128, .bf16⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .bf16⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x1, .f32⟩
  | .hbm, ⟨39, _⟩ => ⟨S1x128, .f32⟩
  | .hbm, ⟨40, _⟩ => ⟨S100000x128, .bf16⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .bf16⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x1, .f32⟩
  | .hbm, ⟨56, _⟩ => ⟨S1x128, .f32⟩
  | .hbm, ⟨57, _⟩ => ⟨S100000x128, .bf16⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .bf16⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S100000x1, .i32⟩
  | .hbm, ⟨73, _⟩ => ⟨S100000x1, .f32⟩
  | .hbm, ⟨74, _⟩ => ⟨S1x128, .f32⟩
  | .hbm, ⟨75, _⟩ => ⟨S1x1, .f32⟩
  | .hbm, ⟨76, _⟩ => ⟨S1000x1, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x128, .bf16⟩
  | .local _ .vmem, ⟨10, _⟩ => ⟨S5000x128, .bf16⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S128x128, .f32⟩
  | .local _ .vmem, ⟨15, _⟩ => ⟨S5000x128, .bf16⟩
  | .local _ .vmem, ⟨16, _⟩ => ⟨S5000x128, .bf16⟩
  | .local _ .vmem, ⟨17, _⟩ => ⟨S5000x128, .f32⟩
  | .local _ .vmem, ⟨18, _⟩ => ⟨S5000x128, .f32⟩
  | .local _ .vmem, ⟨19, _⟩ => ⟨S5000x128, .bf16⟩
  | .local _ .vmem, ⟨20, _⟩ => ⟨S5000x128, .bf16⟩
  | .local _ .vmem, ⟨21, _⟩ => ⟨S5000x1, .f32⟩
  | .local _ .vmem, ⟨22, _⟩ => ⟨S5000x1, .f32⟩
  | .local _ .vmem, ⟨23, _⟩ => ⟨S1x128, .f32⟩
  | .local _ .vmem, ⟨24, _⟩ => ⟨S128x128, .f32⟩
  | .local _ .vmem, ⟨25, _⟩ => ⟨S5000x128, .bf16⟩
  | .local _ .vmem, ⟨26, _⟩ => ⟨S5000x128, .bf16⟩
  | .local _ .vmem, ⟨27, _⟩ => ⟨S1000x128, .f32⟩
  | .local _ .vmem, ⟨28, _⟩ => ⟨S1000x128, .f32⟩
  | .local _ .vmem, ⟨29, _⟩ => ⟨S1000x128, .bf16⟩
  | .local _ .vmem, ⟨30, _⟩ => ⟨S1000x128, .bf16⟩
  | .local _ .vmem, ⟨31, _⟩ => ⟨S1000x1, .f32⟩
  | .local _ .vmem, ⟨32, _⟩ => ⟨S1000x1, .f32⟩
  | .local _ .vmem, ⟨33, _⟩ => ⟨S1x128, .f32⟩
  | .local _ .vmem, ⟨34, _⟩ => ⟨S1000x1, .i32⟩
  | .local _ .vmem, ⟨35, _⟩ => ⟨S1000x1, .i32⟩
  | .local _ .vmem, ⟨36, _⟩ => ⟨S128x1, .f32⟩
  | .local _ .vmem, ⟨37, _⟩ => ⟨S1x1, .f32⟩
  | .local _ .vmem, ⟨38, _⟩ => ⟨S1000x1, .f32⟩
  | .local _ .vmem, ⟨39, _⟩ => ⟨S1024x128, .f32⟩
  | .local _ .vmem, ⟨40, _⟩ => ⟨S1024x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_scratch0 : Ref sig .tc := ⟨.vmem, 39, rfl⟩
abbrev cc3_scratch1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem4_1 : DmaSem sig := 35
abbrev cc3_sem5_0 : DmaSem sig := 36
abbrev cc3_sem6_0 : DmaSem sig := 37
abbrev cc3_sem7_0 : DmaSem sig := 38

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![100], ![false]⟩

def k3_cond2 (i : grid3.Coords) : BitVec 1 :=
  let arg0 : BitVec 32 := BitVec.ofNat 32 (i 0).val
  let c99_i32 : BitVec 32 := 99#32
  let v40 : BitVec 1 := Scalar.cmpi .eq arg0 c99_i32
  let v41 : BitVec 32 := Scalar.extui v40
  let c0_i32_20 : BitVec 32 := 0#32
  let v42 : BitVec 1 := Scalar.cmpi .ne v41 c0_i32_20
  v42

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1000x1 .i32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S128x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1000x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S1_S1x1 : S1.ShapeCasts S1x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1000x1_S1000x128 : S1000x1.Broadcasts S1000x128
  broadcasts_S1x128_S1000x128 : S1x128.Broadcasts S1000x128
  iota_S1x1024_d1_w32 : S1x1024.Iotas .tc 32 [1]
  broadcasts_S1000x1_S1000x1024 : S1000x1.Broadcasts S1000x1024
  broadcasts_S1x1024_S1000x1024 : S1x1024.Broadcasts S1000x1024
  natLt_1_32 : 1 < 32
  broadcasts_S1024x1_S1024x128 : S1024x1.Broadcasts S1024x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  slices_S1024x1_o0_0_S1000x1 : S1024x1.Slices ![0, 0] S1000x1
  scatter_S100000_S1600000x1_S1600000_n_0_0_1_wf : ScatterDims.WF S100000 S1600000x1 S1600000 [] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S1000x1024_S1000x128_S1024x128_0_0_1_1_n_n_wf : DotDims.WF S1000x1024 S1000x128 S1024x128 [0] [0] [1] [1] [] []
  dot_S1000x1024_S1000x1_S1024x1_0_0_1_1_n_n_wf : DotDims.WF S1000x1024 S1000x1 S1024x1 [0] [0] [1] [1] [] []
  dot_S1024x128_S128x1_S1024x1_1_0_0_1_n_n_wf : DotDims.WF S1024x128 S128x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .bf16 = 32 ∨ (Rect.block (s := S100000x128) S5000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .bf16 = 32 ∨ (Rect.block (s := S100000x128) S5000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .bf16 = 32 ∨ (Rect.block (s := S100000x128) S5000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .bf16 = 32 ∨ (Rect.block (s := S100000x128) S5000x128.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S100000x128.size a
  hwx3_0 : ∀ i : grid3.Coords, EltTy.bits .f32 = 32 ∨ (Rect.block (s := S100000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x128.size a ≤ S100000x128.size a
  hwx3_1 : ∀ i : grid3.Coords, EltTy.bits .bf16 = 32 ∨ (Rect.block (s := S100000x128) S1000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x1.size a ≤ S100000x1.size a
  hwx3_2 : ∀ i : grid3.Coords, EltTy.bits .f32 = 32 ∨ (Rect.block (s := S100000x1) S1000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1000x1.size a ≤ S100000x1.size a
  hwx3_4 : ∀ i : grid3.Coords, EltTy.bits .i32 = 32 ∨ (Rect.block (s := S100000x1) S1000x1.size (cc3_transform_4 i) (hinb3_4 i)).WholeWords (EltTy.packing .i32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x1.size a ≤ S128x1.size a
  hwx3_5 : ∀ i : grid3.Coords, EltTy.bits .f32 = 32 ∨ (Rect.block (s := S128x1) S128x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1000x1.size a ≤ S1000x1.size a
  hwx3_7 : ∀ i : grid3.Coords, EltTy.bits .f32 = 32 ∨ (Rect.block (s := S1000x1) S1000x1.size (cc3_transform_7 i) (hinb3_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S1000x1024_S1000x128_S1024x128_0_0_1_1_n_n : DotDims S1000x1024 S1000x128 S1024x128 where
  lhsContracting := [0]
  rhsContracting := [0]
  lhsNonContracting := [1]
  rhsNonContracting := [1]
  lhsBatch := []
  rhsBatch := []
  wf := dot_S1000x1024_S1000x128_S1024x128_0_0_1_1_n_n_wf
def dot_S1000x1024_S1000x1_S1024x1_0_0_1_1_n_n : DotDims S1000x1024 S1000x1 S1024x1 where
  lhsContracting := [0]
  rhsContracting := [0]
  lhsNonContracting := [1]
  rhsNonContracting := [1]
  lhsBatch := []
  rhsBatch := []
  wf := dot_S1000x1024_S1000x1_S1024x1_0_0_1_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v33) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v47) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S1000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v49) S1000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v50) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S1000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_arg10) S128x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v51) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v52) S1000x1.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev idle3 : Fin 8 → grid3.Coords → Bool := fun | 0 => fun _ => false | 1 => fun _ => false | 2 => fun _ => false | 3 => fun _ => false | 4 => fun _ => false | 5 => fun _ => false | 6 => fun _ => false | 7 => fun i => !(k3_cond2 i == 1#1) | ⟨_ + 8, h⟩ => absurd h (Nat.not_lt.2 (Nat.le_add_left _ _))

class Facts : Prop extends Facts₀ where

variable [Facts]
-- ==== ReferenceIdeal.lean ====
abbrev S100000x64 : Shape := ⟨2, ![100000, 64]⟩
abbrev S1600000 : Shape := ⟨1, ![1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S100000x128 : Shape := ⟨2, ![100000, 128]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S1000x128 : Shape := ⟨2, ![1000, 128]⟩
abbrev S1000 : Shape := ⟨1, ![1000]⟩
abbrev S1000x1 : Shape := ⟨2, ![1000, 1]⟩
abbrev S1x1 : Shape := ⟨2, ![1, 1]⟩

abbrev nBuf : Space → Nat
  | .hbm => 200
  | .vmem => 0
  | .smem => 0
  | _ => 0

abbrev hbmTy0_0 (i : Nat) : BufTy := match i % 128 with
  | 0 => ⟨S100000x64, .f32⟩
  | 1 => ⟨S1600000, .i32⟩
  | 2 => ⟨S1600000, .i32⟩
  | 3 => ⟨S100000, .i32⟩
  | 4 => ⟨S64x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x1, .f32⟩
  | 11 => ⟨S1, .f32⟩
  | 12 => ⟨S100000x128, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x128, .f32⟩
  | 51 => ⟨S1600000x1, .f32⟩
  | 52 => ⟨S1600000x128, .f32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000, .f32⟩
  | 59 => ⟨S100000x1, .f32⟩
  | 60 => ⟨S100000x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S_, .f32⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .f32⟩
  | 79 => ⟨S100000, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S1600000x1, .f32⟩
  | 109 => ⟨S1600000x128, .f32⟩
  | 110 => ⟨S1600000x128, .f32⟩
  | 111 => ⟨S_, .f32⟩
  | 112 => ⟨S100000x128, .f32⟩
  | 113 => ⟨S1600000x1, .i32⟩
  | 114 => ⟨S100000x128, .f32⟩
  | 115 => ⟨S100000, .f32⟩
  | 116 => ⟨S100000x1, .f32⟩
  | 117 => ⟨S100000x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S100000x128, .f32⟩
  | 127 => ⟨S_, .f32⟩
  | _ => ⟨S100000x64, .f32⟩

abbrev hbmTy0_1 (i : Nat) : BufTy := match i % 128 with
  | 0 => ⟨S1600000, .f32⟩
  | 1 => ⟨S_, .f32⟩
  | 2 => ⟨S100000, .f32⟩
  | 3 => ⟨S1600000x1, .i32⟩
  | 4 => ⟨S100000, .f32⟩
  | 5 => ⟨S_, .f32⟩
  | 6 => ⟨S100000, .f32⟩
  | 7 => ⟨S100000, .f32⟩
  | 8 => ⟨S100000, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000, .f32⟩
  | 27 => ⟨S1600000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x128, .f32⟩
  | 37 => ⟨S1600000x1, .f32⟩
  | 38 => ⟨S1600000x128, .f32⟩
  | 39 => ⟨S1600000x128, .f32⟩
  | 40 => ⟨S_, .f32⟩
  | 41 => ⟨S100000x128, .f32⟩
  | 42 => ⟨S1600000x1, .i32⟩
  | 43 => ⟨S100000x128, .f32⟩
  | 44 => ⟨S100000, .f32⟩
  | 45 => ⟨S100000x1, .f32⟩
  | 46 => ⟨S100000x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S1000x128, .f32⟩
  | 54 => ⟨S100000x1, .i32⟩
  | 55 => ⟨S1000x128, .f32⟩
  | 56 => ⟨S_, .f32⟩
  | 57 => ⟨S100000, .f32⟩
  | 58 => ⟨S_, .f32⟩
  | 59 => ⟨S1000, .f32⟩
  | 60 => ⟨S100000x1, .i32⟩
  | 61 => ⟨S1000, .f32⟩
  | 62 => ⟨S_, .f32⟩
  | 63 => ⟨S1000, .f32⟩
  | 64 => ⟨S1000, .f32⟩
  | 65 => ⟨S1000x1, .f32⟩
  | 66 => ⟨S1000x128, .f32⟩
  | 67 => ⟨S1000x128, .f32⟩
  | 68 => ⟨S1000x1, .f32⟩
  | 69 => ⟨S1x1, .f32⟩
  | 70 => ⟨S1000x1, .f32⟩
  | 71 => ⟨S1000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call0_cst : Ref sig .tc := ⟨.hbm, 66, rfl⟩
abbrev main_call0_v0 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_c_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_15 : Ref sig .tc := ⟨.hbm, 99, rfl⟩
abbrev main_v68 : Ref sig .tc := ⟨.hbm, 100, rfl⟩
abbrev main_v69 : Ref sig .tc := ⟨.hbm, 101, rfl⟩
abbrev main_c_16 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_17 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_call1_cst : Ref sig .tc := ⟨.hbm, 123, rfl⟩
abbrev main_call1_v0 : Ref sig .tc := ⟨.hbm, 124, rfl⟩
abbrev main_v89 : Ref sig .tc := ⟨.hbm, 125, rfl⟩
abbrev main_v90 : Ref sig .tc := ⟨.hbm, 126, rfl⟩
abbrev main_cst_18 : Ref sig .tc := ⟨.hbm, 127, rfl⟩
abbrev main_v91 : Ref sig .tc := ⟨.hbm, 128, rfl⟩
abbrev main_cst_19 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_20 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_c_21 : Ref sig .tc := ⟨.hbm, 137, rfl⟩
abbrev main_v98 : Ref sig .tc := ⟨.hbm, 138, rfl⟩
abbrev main_v99 : Ref sig .tc := ⟨.hbm, 139, rfl⟩
abbrev main_c_22 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_c_23 : Ref sig .tc := ⟨.hbm, 146, rfl⟩
abbrev main_v105 : Ref sig .tc := ⟨.hbm, 147, rfl⟩
abbrev main_v106 : Ref sig .tc := ⟨.hbm, 148, rfl⟩
abbrev main_c_24 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_c_25 : Ref sig .tc := ⟨.hbm, 156, rfl⟩
abbrev main_v113 : Ref sig .tc := ⟨.hbm, 157, rfl⟩
abbrev main_v114 : Ref sig .tc := ⟨.hbm, 158, rfl⟩
abbrev main_c_26 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_27 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_cst_28 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_cst_29 : Ref sig .tc := ⟨.hbm, 184, rfl⟩
abbrev main_v137 : Ref sig .tc := ⟨.hbm, 185, rfl⟩
abbrev main_cst_30 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_cst_31 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1000x128 : S_.BroadcastsInDim S1000x128 (![] : Fin 0 → Fin S1000x128.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  dot_S100000x64_S64x128_S100000x128_1_0_0_1_n_n_wf : DotDims.WF S100000x64 S64x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S1000x128_S100000x1_S100000x128_1_0_0_1_wf : ScatterDims.WF S1000x128 S100000x1 S100000x128 [1] [0] [0] 1
  scatter_S1000_S100000x1_S100000_n_0_0_1_wf : ScatterDims.WF S1000 S100000x1 S100000 [] [0] [0] 1
  dot_S1000x128_S128x1_S1000x1_1_0_0_1_n_n_wf : DotDims.WF S1000x128 S128x1 S1000x1 [1] [0] [0] [1] [] []

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf

class Facts : Prop extends Facts₀ where

variable [Facts]
-- ==== Proof.Reg0.lean ====
import proofs.«428218_j42571715838145_2_alg».proof.Proof.KernelIdealLaunch
import proofs.«428218_j42571715838145_2_alg».proof.Proof.Gen.KernelIdeal.Skeleton
import proofs.«428218_j42571715838145_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x64 := Rect.unit (s := S5000x64) ![0, 0] S5000x64.size inb_S5000x64_S5000x64_0_0
abbrev r0_1 : Rect S64x128 := Rect.unit (s := S64x128) ![0, 0] S64x128.size inb_S64x128_S64x128_0_0
abbrev r0_2 : Rect S5000x1 := Rect.unit (s := S5000x1) ![0, 0] S5000x1.size inb_S5000x1_S5000x1_0_0
abbrev r0_3 : Rect S5000x128 := Rect.unit (s := S5000x128) ![0, 0] S5000x128.size inb_S5000x128_S5000x128_0_0

def out0_3 (x0 : Vec F S5000x64 .f32) (x1 : Vec F S64x128 .f32) (x2 : Vec F S5000x1 .f32) : Vec F S5000x128 .bf16 :=
  View.canon [⟨r0_3, k0_pay1 (View.ld x0 r0_0) (View.ld x1 r0_1) (View.ld x2 r0_2)⟩]

theorem cover0_3 (p0 : Vec F S5000x128 .bf16) (y : S5000x128.Idx) :
    ∃ pc ∈ ([⟨r0_3, p0⟩] : List (View.Piece (Elt F) S5000x128 .bf16)), y ∈ pc.1.set :=
  View.cover_of_tiled [⟨r0_3, p0⟩] S5000x128.size (by rfl) y

set_option maxHeartbeats 1000000 in

theorem sound_kernel0 (c : Dev nD) (E : Set ℕ) (i : grid0.Coords)
    (arg1 : Memref sig .tc .vmem S5000x64 .f32) (harg1 : arg1.IsWhole) (arg2 : Memref sig .tc .vmem S64x128 .f32) (harg2 : arg2.IsWhole)
    (arg3 : Memref sig .tc .vmem S5000x1 .f32) (harg3 : arg3.IsWhole) (arg4 : Memref sig .tc .vmem S5000x128 .bf16) (harg4 : arg4.IsWhole)
    (x0 : Vec F S5000x64 .f32) (x1 : Vec F S64x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__layer1_kernel i arg1 harg1 arg2 harg2 arg3 harg3 arg4 harg4) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) : (dat0 V c).after 3 t = out0_3 (iblk0 V c 0 t) (iblk0 V c 1 t) (iblk0 V c 2 t) := by
  dsimp only [dat0]

/-- What the body finds in each input window at a point is that window's block of the array at region entry. -/
theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) := by
  refine ⟨?_, ?_, ?_⟩ <;>
    exact fun d => ((dat0 V c).before_in_eq_fetched _ rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  obtain ⟨b0, b1, b2⟩ := before0 V c t
  simp only [b0, b1, b2]
  rw [show (dat0 V c).Φ t.succ = (dat0 V c).Φ t.castSucc from rfl,
    show (dat0 V c).owesAt () t.succ = (dat0 V c).owesAt () t.castSucc from rfl,
    show (dat0 V c).after 0 t = iblk0 V c 0 t from rfl, show (dat0 V c).after 1 t = iblk0 V c 1 t from rfl, show (dat0 V c).after 2 t = iblk0 V c 2 t from rfl, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  iframe H0 H1 H2
  isplitl [H3]; · iexists _; iexact H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Reg1.lean ====
import proofs.«428218_j42571715838145_2_alg».proof.Proof.KernelIdealLaunch
import proofs.«428218_j42571715838145_2_alg».proof.Proof.Gen.KernelIdeal.Skeleton
import proofs.«428218_j42571715838145_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x1 := Rect.unit (s := S5000x1) ![0, 0] S5000x1.size inb_S5000x1_S5000x1_0_0

abbrev r1_1 : Rect S5000x128 := Rect.unit (s := S5000x128) ![0, 0] S5000x128.size inb_S5000x128_S5000x128_0_0

abbrev r1_2 : Rect S1x128 := Rect.unit (s := S1x128) ![0, 0] S1x128.size inb_S1x128_S1x128_0_0

abbrev r1_3 : Rect S128x128 := Rect.unit (s := S128x128) ![0, 0] S128x128.size inb_S128x128_S128x128_0_0

def out1_5 (x0 : Vec F S5000x128 .f32) (x1 : Vec F S5000x128 .bf16) (x2 : Vec F S5000x1 .f32) (x3 : Vec F S1x128 .f32) (x4 : Vec F S128x128 .f32) : Vec F S5000x128 .bf16 :=
  View.canon [⟨r1_1, k1_pay1 (View.ld x2 r1_0) (View.ld x0 r1_1) (View.ld x1 r1_1) (View.ld x3 r1_2) (View.ld x4 r1_3)⟩]

theorem cover1_5 (p0 : Vec F S5000x128 .bf16) (y : S5000x128.Idx) :
    ∃ pc ∈ ([⟨r1_1, p0⟩] : List (View.Piece (Elt F) S5000x128 .bf16)), y ∈ pc.1.set :=
  View.cover_of_tiled [⟨r1_1, p0⟩] S5000x128.size (by rfl) y

set_option maxHeartbeats 1000000 in

theorem sound_kernel1 (c : Dev nD) (E : Set ℕ) (i : grid1.Coords) (arg1 : Memref sig .tc .vmem S5000x128 .f32) (harg1 : arg1.IsWhole) (arg2 : Memref sig .tc .vmem S5000x128 .bf16) (harg2 : arg2.IsWhole) (arg3 : Memref sig .tc .vmem S5000x1 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .bf16) (harg6 : arg6.IsWhole)
    (x0 : Vec F S5000x128 .f32) (x1 : Vec F S5000x128 .bf16) (x2 : Vec F S5000x1 .f32) (x3 : Vec F S1x128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__conv_prelude_kernel i arg1 harg1 arg2 harg2 arg3 harg3 arg4 harg4 arg5 harg5 arg6 harg6) K := by
  simp only [cc1__conv_prelude_kernel_eq_skeleton]; unfold cc1__conv_prelude_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem after1_5 (c : Dev nD) (t : Fin cfg1.N) : (dat1 V c).after 5 t = out1_5 (iblk1 V c 0 t) (iblk1 V c 1 t) (iblk1 V c 2 t) (iblk1 V c 3 t) (iblk1 V c 4 t) := by
  dsimp only [dat1]

/-- What the body finds in each input window at a point is that window's block of the array at region entry. -/
theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t)
    ∧ (∀ d, (dat1 V c).before 3 t d = iblk1 V c 3 t) ∧ (∀ d, (dat1 V c).before 4 t d = iblk1 V c 4 t) := by
  refine ⟨?_, ?_, ?_, ?_, ?_⟩ <;>
    exact fun d => ((dat1 V c).before_in_eq_fetched _ rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  obtain ⟨b0, b1, b2, b3, b4⟩ := before1 V c t
  simp only [b0, b1, b2, b3, b4]
  rw [show (dat1 V c).Φ t.succ = (dat1 V c).Φ t.castSucc from rfl,
    show (dat1 V c).owesAt () t.succ = (dat1 V c).owesAt () t.castSucc from rfl,
    show (dat1 V c).after 0 t = iblk1 V c 0 t from rfl, show (dat1 V c).after 1 t = iblk1 V c 1 t from rfl, show (dat1 V c).after 2 t = iblk1 V c 2 t from rfl,
    show (dat1 V c).after 3 t = iblk1 V c 3 t from rfl, show (dat1 V c).after 4 t = iblk1 V c 4 t from rfl, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  iframe H0 H1 H2 H3 H4
  isplitl [H5]; · iexists _; iexact H5
  iintro ⟨H0, H1, H2, H3, H4, H5⟩
  iframe

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Reg2.lean ====
import proofs.«428218_j42571715838145_2_alg».proof.Proof.KernelIdealLaunch
import proofs.«428218_j42571715838145_2_alg».proof.Proof.Gen.KernelIdeal.Skeleton
import proofs.«428218_j42571715838145_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x1 := Rect.unit (s := S5000x1) ![0, 0] S5000x1.size inb_S5000x1_S5000x1_0_0

abbrev r2_1 : Rect S5000x128 := Rect.unit (s := S5000x128) ![0, 0] S5000x128.size inb_S5000x128_S5000x128_0_0

abbrev r2_2 : Rect S1x128 := Rect.unit (s := S1x128) ![0, 0] S1x128.size inb_S1x128_S1x128_0_0

abbrev r2_3 : Rect S128x128 := Rect.unit (s := S128x128) ![0, 0] S128x128.size inb_S128x128_S128x128_0_0

def out2_5 (x0 : Vec F S5000x128 .f32) (x1 : Vec F S5000x128 .bf16) (x2 : Vec F S5000x1 .f32) (x3 : Vec F S1x128 .f32) (x4 : Vec F S128x128 .f32) : Vec F S5000x128 .bf16 :=
  View.canon [⟨r2_1, k2_pay1 (View.ld x2 r2_0) (View.ld x0 r2_1) (View.ld x1 r2_1) (View.ld x3 r2_2) (View.ld x4 r2_3)⟩]

theorem cover2_5 (p0 : Vec F S5000x128 .bf16) (y : S5000x128.Idx) :
    ∃ pc ∈ ([⟨r2_1, p0⟩] : List (View.Piece (Elt F) S5000x128 .bf16)), y ∈ pc.1.set :=
  View.cover_of_tiled [⟨r2_1, p0⟩] S5000x128.size (by rfl) y

set_option maxHeartbeats 1000000 in

theorem sound_kernel2 (c : Dev nD) (E : Set ℕ) (i : grid2.Coords) (arg1 : Memref sig .tc .vmem S5000x128 .f32) (harg1 : arg1.IsWhole) (arg2 : Memref sig .tc .vmem S5000x128 .bf16) (harg2 : arg2.IsWhole) (arg3 : Memref sig .tc .vmem S5000x1 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .bf16) (harg6 : arg6.IsWhole)
    (x0 : Vec F S5000x128 .f32) (x1 : Vec F S5000x128 .bf16) (x2 : Vec F S5000x1 .f32) (x3 : Vec F S1x128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__conv_prelude_kernel i arg1 harg1 arg2 harg2 arg3 harg3 arg4 harg4 arg5 harg5 arg6 harg6) K := by
  simp only [cc2__conv_prelude_kernel_eq_skeleton]; unfold cc2__conv_prelude_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_5 (c : Dev nD) (t : Fin cfg2.N) : (dat2 V c).after 5 t = out2_5 (iblk2 V c 0 t) (iblk2 V c 1 t) (iblk2 V c 2 t) (iblk2 V c 3 t) (iblk2 V c 4 t) := by
  dsimp only [dat2]

/-- What the body finds in each input window at a point is that window's block of the array at region entry. -/
theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t)
    ∧ (∀ d, (dat2 V c).before 3 t d = iblk2 V c 3 t) ∧ (∀ d, (dat2 V c).before 4 t d = iblk2 V c 4 t) := by
  refine ⟨?_, ?_, ?_, ?_, ?_⟩ <;>
    exact fun d => ((dat2 V c).before_in_eq_fetched _ rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  obtain ⟨b0, b1, b2, b3, b4⟩ := before2 V c t
  simp only [b0, b1, b2, b3, b4]
  rw [show (dat2 V c).Φ t.succ = (dat2 V c).Φ t.castSucc from rfl,
    show (dat2 V c).owesAt () t.succ = (dat2 V c).owesAt () t.castSucc from rfl,
    show (dat2 V c).after 0 t = iblk2 V c 0 t from rfl, show (dat2 V c).after 1 t = iblk2 V c 1 t from rfl, show (dat2 V c).after 2 t = iblk2 V c 2 t from rfl,
    show (dat2 V c).after 3 t = iblk2 V c 3 t from rfl, show (dat2 V c).after 4 t = iblk2 V c 4 t from rfl, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  iframe H0 H1 H2 H3 H4
  isplitl [H5]; · iexists _; iexact H5
  iintro ⟨H0, H1, H2, H3, H4, H5⟩
  iframe

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Reg3.lean ====
import proofs.«428218_j42571715838145_2_alg».proof.Proof.KernelIdealLaunch
import proofs.«428218_j42571715838145_2_alg».proof.Proof.Gen.KernelIdeal.Skeleton
import proofs.«428218_j42571715838145_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def sAcc (c : Dev nD) : (n : ℕ) → n < cfg3.N → Vec F S1024x128 .f32
  | 0, h => k3_pay7 (iblk3 V c 2 ⟨0, h⟩) (iblk3 V c 0 ⟨0, h⟩) (iblk3 V c 1 ⟨0, h⟩) (iblk3 V c 3 ⟨0, h⟩) (iblk3 V c 4 ⟨0, h⟩) k3_pay3
  | n + 1, h => k3_pay7 (iblk3 V c 2 ⟨n + 1, h⟩) (iblk3 V c 0 ⟨n + 1, h⟩) (iblk3 V c 1 ⟨n + 1, h⟩) (iblk3 V c 3 ⟨n + 1, h⟩) (iblk3 V c 4 ⟨n + 1, h⟩) (sAcc c n (Nat.lt_of_succ_lt h))

def cAcc (c : Dev nD) : (n : ℕ) → n < cfg3.N → Vec F S1024x1 .f32
  | 0, h => k3_pay1 (k3_pay6 (iblk3 V c 4 ⟨0, h⟩)) k3_pay4
  | n + 1, h => k3_pay1 (k3_pay6 (iblk3 V c 4 ⟨n + 1, h⟩)) (cAcc c n (Nat.lt_of_succ_lt h))

theorem sAcc_zero (c : Dev nD) (h : 0 < cfg3.N) :
    sAcc V c 0 h = k3_pay7 (iblk3 V c 2 ⟨0, h⟩) (iblk3 V c 0 ⟨0, h⟩) (iblk3 V c 1 ⟨0, h⟩) (iblk3 V c 3 ⟨0, h⟩) (iblk3 V c 4 ⟨0, h⟩) k3_pay3 := rfl
theorem sAcc_succ (c : Dev nD) (n : ℕ) (h : n + 1 < cfg3.N) :
    sAcc V c (n + 1) h = k3_pay7 (iblk3 V c 2 ⟨n + 1, h⟩) (iblk3 V c 0 ⟨n + 1, h⟩) (iblk3 V c 1 ⟨n + 1, h⟩) (iblk3 V c 3 ⟨n + 1, h⟩) (iblk3 V c 4 ⟨n + 1, h⟩) (sAcc V c n (Nat.lt_of_succ_lt h)) := rfl
theorem cAcc_zero (c : Dev nD) (h : 0 < cfg3.N) :
    cAcc V c 0 h = k3_pay1 (k3_pay6 (iblk3 V c 4 ⟨0, h⟩)) k3_pay4 := rfl
theorem cAcc_succ (c : Dev nD) (n : ℕ) (h : n + 1 < cfg3.N) :
    cAcc V c (n + 1) h = k3_pay1 (k3_pay6 (iblk3 V c 4 ⟨n + 1, h⟩)) (cAcc V c n (Nat.lt_of_succ_lt h)) := rfl

theorem sAcc_pos (c : Dev nD) (t : Fin cfg3.N) (ht : t.val ≠ 0) :
    sAcc V c t.val t.isLt = k3_pay7 (iblk3 V c 2 t) (iblk3 V c 0 t) (iblk3 V c 1 t) (iblk3 V c 3 t) (iblk3 V c 4 t) (sAcc V c (t.val - 1) (Nat.lt_of_le_of_lt (Nat.sub_le _ _) t.isLt)) := by
  obtain ⟨n, hn⟩ := t
  cases n with
  | zero => exact absurd rfl ht
  | succ n => rfl
theorem cAcc_pos (c : Dev nD) (t : Fin cfg3.N) (ht : t.val ≠ 0) :
    cAcc V c t.val t.isLt = k3_pay1 (k3_pay6 (iblk3 V c 4 t)) (cAcc V c (t.val - 1) (Nat.lt_of_le_of_lt (Nat.sub_le _ _) t.isLt)) := by
  obtain ⟨n, hn⟩ := t
  cases n with
  | zero => exact absurd rfl ht
  | succ n => rfl

theorem sAcc_first (c : Dev nD) (t : Fin cfg3.N) (ht : t.val = 0) :
    sAcc V c t.val t.isLt = k3_pay7 (iblk3 V c 2 t) (iblk3 V c 0 t) (iblk3 V c 1 t) (iblk3 V c 3 t) (iblk3 V c 4 t) k3_pay3 := by
  obtain ⟨n, hn⟩ := t; subst ht; rfl
theorem cAcc_first (c : Dev nD) (t : Fin cfg3.N) (ht : t.val = 0) :
    cAcc V c t.val t.isLt = k3_pay1 (k3_pay6 (iblk3 V c 4 t)) k3_pay4 := by
  obtain ⟨n, hn⟩ := t; subst ht; rfl

theorem hz2 : (![0, 0] : Fin 2 → ℕ) = fun _ => 0 := by
  funext a; fin_cases a <;> rfl

theorem read_writes_unit_zero {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f ((⟨Rect.unit off S.size inb, w⟩ : View.Piece Val S e) :: L)
    (fun y => ⟨⟨Rect.unit off S.size inb, w⟩, List.mem_cons_self, View.mem_set_unit_zero h inb y⟩)).trans
    (View.canon_cons_unit_zero h inb w L)

abbrev r3_7 : Rect S1000x1 := Rect.unit (s := S1000x1) ![0, 0] S1000x1.size inb_S1000x1_S1000x1_0_0

def out3_7 (c : Dev nD) (t : Fin cfg3.N) : Vec F S1000x1 .f32 :=
  View.canon [⟨r3_7, k3_pay2 (sAcc V c t.val t.isLt) (cAcc V c t.val t.isLt) (iblk3 V c 5 t) (iblk3 V c 6 t)⟩]

theorem out3_7_eq (c : Dev nD) (t : Fin cfg3.N) :
    out3_7 V c t = k3_pay2 (sAcc V c t.val t.isLt) (cAcc V c t.val t.isLt) (iblk3 V c 5 t) (iblk3 V c 6 t) := by
  unfold out3_7; exact View.canon_unit_zero hz2 _ _

abbrev scM3_0 : Memref sig .tc .vmem S1024x128 .f32 := Memref.whole cc3_scratch0
abbrev scM3_1 : Memref sig .tc .vmem S1024x1 .f32 := Memref.whole cc3_scratch1

def Phi3 (c : Dev nD) : (n : ℕ) → n ≤ cfg3.N → sProp 𝕄
  | 0, _ => iprop((∃ r, prngReg c r) ∗ Pipeline.scopedRestBut (Ix := Unit) (Name := ℕ) (U := UR sig nD τ) (Lvl := ℕ) (Val := Elt F) spec3 c [cc3_scratch0, cc3_scratch1]
      ∗ (∃ d, owns (c : Thread nD τ) scM3_0 fullShare d) ∗ (∃ d, owns (c : Thread nD τ) scM3_1 fullShare d))
  | n + 1, hn => iprop((∃ r, prngReg c r) ∗ Pipeline.scopedRestBut (Ix := Unit) (Name := ℕ) (U := UR sig nD τ) (Lvl := ℕ) (Val := Elt F) spec3 c [cc3_scratch0, cc3_scratch1]
      ∗ owns (c : Thread nD τ) scM3_0 fullShare (sAcc V c n hn) ∗ owns (c : Thread nD τ) scM3_1 fullShare (cAcc V c n hn))

theorem Phi3_zero (c : Dev nD) (n : ℕ) (h : n ≤ cfg3.N) (hz : n = 0) :
    Phi3 V c n h = iprop((∃ r, prngReg c r) ∗ Pipeline.scopedRestBut (Ix := Unit) (Name := ℕ) (U := UR sig nD τ) (Lvl := ℕ) (Val := Elt F) spec3 c [cc3_scratch0, cc3_scratch1]
      ∗ (∃ d, owns (c : Thread nD τ) scM3_0 fullShare d) ∗ (∃ d, owns (c : Thread nD τ) scM3_1 fullShare d)) := by
  subst hz; rfl
theorem Phi3_succ (c : Dev nD) (n : ℕ) (hn : n < cfg3.N) :
    Phi3 V c (n + 1) hn = iprop((∃ r, prngReg c r) ∗ Pipeline.scopedRestBut (Ix := Unit) (Name := ℕ) (U := UR sig nD τ) (Lvl := ℕ) (Val := Elt F) spec3 c [cc3_scratch0, cc3_scratch1]
      ∗ owns (c : Thread nD τ) scM3_0 fullShare (sAcc V c n hn) ∗ owns (c : Thread nD τ) scM3_1 fullShare (cAcc V c n hn)) := rfl
theorem Phi3_pos (c : Dev nD) (n : ℕ) (h : n ≤ cfg3.N) (hz : n ≠ 0) :
    Phi3 V c n h = iprop((∃ r, prngReg c r) ∗ Pipeline.scopedRestBut (Ix := Unit) (Name := ℕ) (U := UR sig nD τ) (Lvl := ℕ) (Val := Elt F) spec3 c [cc3_scratch0, cc3_scratch1]
      ∗ owns (c : Thread nD τ) scM3_0 fullShare (sAcc V c (n - 1) (by omega)) ∗ owns (c : Thread nD τ) scM3_1 fullShare (cAcc V c (n - 1) (by omega))) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 V c t
  Φ t := Phi3 V c t.val (Nat.le_of_lt_succ t.isLt)
  q _ := fullShare
  owed _ := 0

theorem A_eq3 (c : Dev nD) (w : Fin cfg3.W) : (dat3 V c).A w = V c (Pipeline.arrRef spec3 w) := rfl

theorem after3_7 (c : Dev nD) (t : Fin cfg3.N) : (dat3 V c).after 7 t = out3_7 V c t := by dsimp only [dat3]

/-- What the body finds in each input window at a point is that window's block of the array at region entry. -/
theorem before3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t)
    ∧ (∀ d, (dat3 V c).before 3 t d = iblk3 V c 3 t) ∧ (∀ d, (dat3 V c).before 4 t d = iblk3 V c 4 t) ∧ (∀ d, (dat3 V c).before 5 t d = iblk3 V c 5 t)
    ∧ (∀ d, (dat3 V c).before 6 t d = iblk3 V c 6 t) := by
  refine ⟨?_, ?_, ?_, ?_, ?_, ?_, ?_⟩ <;>
    exact fun d => ((dat3 V c).before_in_eq_fetched _ rfl (fun _ => rfl) (fun _ _ _ => rfl) (fun _ => rfl) t d).trans rfl

theorem Phi3_castSucc (c : Dev nD) (t : Fin cfg3.N) :
    (dat3 V c).Φ t.castSucc = Phi3 V c t.val (Nat.le_of_lt t.isLt) := by
  dsimp only [dat3]; simp only [Fin.coe_castSucc]

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)

abbrev cond3_1 (i : grid3.Coords) : Prop := k3_cond2 i = 1#1
theorem hcond3_1 : ∀ t : Fin cfg3.N, cond3_1 (grid3.coords t) ↔ t.val = 99 :=
  (by decide +kernel : ∀ t : Fin grid3.N, cond3_1 (grid3.coords t) ↔ t.val = 99)

theorem idleAt3_7 : ∀ t : Fin cfg3.N, ¬cond3_1 (grid3.coords t) → cfg3.idle 7 (grid3.coords t) = true := by decide +kernel
theorem noFlush3_7 : ∀ t : Fin cfg3.N, ¬cond3_1 (grid3.coords t) → (cfg3.win 7).flush t = false := by decide +kernel
theorem liveAt3_7 : ∀ t : Fin cfg3.N, cond3_1 (grid3.coords t) → cfg3.idle 7 (grid3.coords t) = false := by decide +kernel

set_option maxHeartbeats 4000000 in
/-- The pooling kernel's body: every point adds its block of rows into the two accumulators, which start from zero at
    the first point (`a0`, `a1`); the last point also stores the read-out of the updated accumulators, and every other
    point leaves the output block as it was. -/
theorem sound_kernel3 (c : Dev nD) (E : Set ℕ) (i : grid3.Coords) (arg1 : Memref sig .tc .vmem S1000x128 .f32) (harg1 : arg1.IsWhole) (arg2 : Memref sig .tc .vmem S1000x128 .bf16) (harg2 : arg2.IsWhole) (arg3 : Memref sig .tc .vmem S1000x1 .f32) (harg3 : arg3.IsWhole) (arg4 : Memref sig .tc .vmem S1x128 .f32) (harg4 : arg4.IsWhole) (arg5 : Memref sig .tc .vmem S1000x1 .i32) (harg5 : arg5.IsWhole) (arg6 : Memref sig .tc .vmem S128x1 .f32) (harg6 : arg6.IsWhole) (arg7 : Memref sig .tc .vmem S1x1 .f32) (harg7 : arg7.IsWhole) (arg8 : Memref sig .tc .vmem S1000x1 .f32) (harg8 : arg8.IsWhole) (arg9 : Memref sig .tc .vmem S1024x128 .f32) (harg9 : arg9.IsWhole) (arg10 : Memref sig .tc .vmem S1024x1 .f32) (harg10 : arg10.IsWhole)
    (x0 : Vec F S1000x128 .f32) (x1 : Vec F S1000x128 .bf16) (x2 : Vec F S1000x1 .f32) (x3 : Vec F S1x128 .f32) (x4 : Vec F S1000x1 .i32) (x5 : Vec F S128x1 .f32) (x6 : Vec F S1x1 .f32)
    (d7 r8 : Vec F S1000x1 .f32) (s0 a0 : Vec F S1024x128 .f32) (s1 a1 : Vec F S1024x1 .f32)
    (h0 : (cond3_0 i ∧ a0 = k3_pay3 ∧ a1 = k3_pay4) ∨ (¬cond3_0 i ∧ a0 = s0 ∧ a1 = s1))
    (h1 : (cond3_1 i ∧ ¬cond3_0 i ∧ r8 = k3_pay2 (k3_pay7 x2 x0 x1 x3 x4 a0) (k3_pay1 (k3_pay6 x4) a1) x5 x6) ∨ (¬cond3_1 i ∧ r8 = d7))
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare d7
        ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare r8
            ∗ owns (c : Thread nD τ) arg9 fullShare (k3_pay7 x2 x0 x1 x3 x4 a0) ∗ owns (c : Thread nD τ) arg10 fullShare (k3_pay1 (k3_pay6 x4) a1)) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8 arg9 harg9 arg10 harg10) K := by
  rcases h0 with ⟨hc0, rfl, rfl⟩ | ⟨hc0, rfl, rfl⟩ <;> rcases h1 with ⟨hc1, hn, rfl⟩ | ⟨hc1, rfl⟩
  · exact absurd hc0 hn
  all_goals
    haveI : Fact _ := ⟨hc0⟩
    haveI : Fact _ := ⟨hc1⟩
    simp only [cc3__pool_kernel_eq_skeleton]; unfold cc3__pool_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f9, %hf9, H9⟩, ⟨%f10, %hf10, H10⟩, Hk⟩
    subst hf0 hf1 hf2 hf3 hf4 hf5 hf6 hf7 hf9 hf10
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · first
      | (iexists f7; isplitr; · ipureintro; rfl
         iexact H7)
      | (iexists _; isplitr; swap; · iexact H7
         ipureintro
         sl_unfold_run_names
         rw [read_writes_unit_zero (S := S1000x1) _ _ hz2]
         simp only [View.readAt_eq_ld, View.ld_unit_zero (S := S1000x1) hz2, View.ld_unit_zero (S := S1000x128) hz2, View.ld_unit_zero (S := S1x128) hz2, View.ld_unit_zero (S := S1024x128) hz2, View.ld_unit_zero (S := S1024x1) hz2, View.ld_unit_zero (S := S128x1) hz2, View.ld_unit_zero (S := S1x1) hz2, View.readCov_unit_zero (S := S1024x128) _ hz2, View.readCov_unit_zero (S := S1024x1) _ hz2, View.readCov_unit_zero (S := S1000x1) _ hz2])
    isplitl [H9]
    · iexists _; isplitr; swap; · iexact H9
      ipureintro
      sl_unfold_run_names
      rw [read_writes_unit_zero (S := S1024x128) _ _ hz2]
      simp only [View.readAt_eq_ld, View.ld_unit_zero (S := S1000x1) hz2, View.ld_unit_zero (S := S1000x128) hz2, View.ld_unit_zero (S := S1x128) hz2, View.ld_unit_zero (S := S1024x128) hz2, View.ld_unit_zero (S := S1024x1) hz2, View.ld_unit_zero (S := S128x1) hz2, View.ld_unit_zero (S := S1x1) hz2, View.readCov_unit_zero (S := S1024x128) _ hz2, View.readCov_unit_zero (S := S1024x1) _ hz2, View.readCov_unit_zero (S := S1000x1) _ hz2]
    · iexists _; isplitr; swap; · iexact H10
      ipureintro
      sl_unfold_run_names
      rw [read_writes_unit_zero (S := S1024x1) _ _ hz2]
      simp only [View.readAt_eq_ld, View.ld_unit_zero (S := S1000x1) hz2, View.ld_unit_zero (S := S1000x128) hz2, View.ld_unit_zero (S := S1x128) hz2, View.ld_unit_zero (S := S1024x128) hz2, View.ld_unit_zero (S := S1024x1) hz2, View.ld_unit_zero (S := S128x1) hz2, View.ld_unit_zero (S := S1x1) hz2, View.readCov_unit_zero (S := S1024x128) _ hz2, View.readCov_unit_zero (S := S1024x1) _ hz2, View.readCov_unit_zero (S := S1000x1) _ hz2]

theorem leavesExact3_live (c : Dev nD) (w : Fin cfg3.W) (t : Fin cfg3.N) (hi : cfg3.idle w (cfg3.grid.coords t) = false) :
    (dat3 V c).leavesExact w t = owns (c : Thread nD τ) ((cfg3.win w).stage (cfg3.slots t w)) fullShare ((dat3 V c).after w t) := by
  unfold Dat.leavesExact; rw [hi]

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 4000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  obtain ⟨b0, b1, b2, b3, b4, b5, b6⟩ := before3 V c t
  rw [leavesExact3_live V c 0 t rfl, leavesExact3_live V c 1 t rfl, leavesExact3_live V c 2 t rfl, leavesExact3_live V c 3 t rfl, leavesExact3_live V c 4 t rfl, leavesExact3_live V c 5 t rfl, leavesExact3_live V c 6 t rfl,
    show (dat3 V c).after 0 t = iblk3 V c 0 t from rfl, show (dat3 V c).after 1 t = iblk3 V c 1 t from rfl, show (dat3 V c).after 2 t = iblk3 V c 2 t from rfl, show (dat3 V c).after 3 t = iblk3 V c 3 t from rfl, show (dat3 V c).after 4 t = iblk3 V c 4 t from rfl, show (dat3 V c).after 5 t = iblk3 V c 5 t from rfl, show (dat3 V c).after 6 t = iblk3 V c 6 t from rfl]
  simp only [b0, b1, b2, b3, b4, b5, b6]
  rw [show (dat3 V c).owesAt () t.succ = (dat3 V c).owesAt () t.castSucc from rfl,
    Phi3_castSucc V c t, show (dat3 V c).Φ t.succ = Phi3 V c (t.val + 1) t.isLt from rfl, Phi3_succ V c t.val t.isLt]
  have hN : t.val < 100 := lt_of_lt_of_eq t.isLt (show cfg3.N = 100 from N_3)
  by_cases h0 : t.val = 0
  · have hc1 : ¬cond3_1 (grid3.coords t) := fun h => by have := (hcond3_1 t).mp h; omega
    rw [Phi3_zero V c t.val _ h0, sAcc_first V c t h0, cAcc_first V c t h0,
      Dat.leavesExact_idle _ 7 t (idleAt3_7 t hc1) (noFlush3_7 t hc1)]
    iintro ⟨⟨Hg, HR, ⟨%s0, Hs0⟩, ⟨%s1, Hs1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel3 c Set.univ (grid3.coords t) _ _ _ _ _ _ _ _ _ _ _ _ _ _ _ _ _ _ _ _
      (iblk3 V c 0 t) (iblk3 V c 1 t) (iblk3 V c 2 t) (iblk3 V c 3 t) (iblk3 V c 4 t) (iblk3 V c 5 t) (iblk3 V c 6 t) ((dat3 V c).before 7 t d7) _ s0 _ s1 _
      (Or.inl ⟨(hcond3_0 t).mpr h0, rfl, rfl⟩) (Or.inr ⟨hc1, rfl⟩) _)
    iframe H0 H1 H2 H3 H4 H5 H6 H7 Hs0 Hs1
    iintro ⟨H0, H1, H2, H3, H4, H5, H6, H7, Hs0, Hs1⟩
    iframe Hg HR Hs0 Hs1 Ho H0 H1 H2 H3 H4 H5 H6
    iexists d7; iexact H7
  · have hc0 : ¬cond3_0 (grid3.coords t) := fun h => h0 ((hcond3_0 t).mp h)
    by_cases h99 : t.val = 99
    · have hc1 : cond3_1 (grid3.coords t) := (hcond3_1 t).mpr h99
      rw [Phi3_pos V c t.val _ h0, leavesExact3_live V c 7 t (liveAt3_7 t hc1), after3_7, out3_7_eq,
        sAcc_pos V c t h0, cAcc_pos V c t h0]
      iintro ⟨⟨Hg, HR, Hs0, Hs1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel3 c Set.univ (grid3.coords t) _ _ _ _ _ _ _ _ _ _ _ _ _ _ _ _ _ _ _ _
        (iblk3 V c 0 t) (iblk3 V c 1 t) (iblk3 V c 2 t) (iblk3 V c 3 t) (iblk3 V c 4 t) (iblk3 V c 5 t) (iblk3 V c 6 t) ((dat3 V c).before 7 t d7) _ (sAcc V c (t.val - 1) (Nat.lt_of_le_of_lt (Nat.sub_le _ _) t.isLt)) _ (cAcc V c (t.val - 1) (Nat.lt_of_le_of_lt (Nat.sub_le _ _) t.isLt)) _
        (Or.inr ⟨hc0, rfl, rfl⟩) (Or.inl ⟨hc1, hc0, rfl⟩) _)
      iframe H0 H1 H2 H3 H4 H5 H6 H7 Hs0 Hs1
      iintro ⟨H0, H1, H2, H3, H4, H5, H6, H7, Hs0, Hs1⟩
      iframe
    · have hc1 : ¬cond3_1 (grid3.coords t) := fun h => h99 ((hcond3_1 t).mp h)
      rw [Phi3_pos V c t.val _ h0, sAcc_pos V c t h0, cAcc_pos V c t h0,
        Dat.leavesExact_idle _ 7 t (idleAt3_7 t hc1) (noFlush3_7 t hc1)]
      iintro ⟨⟨Hg, HR, Hs0, Hs1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel3 c Set.univ (grid3.coords t) _ _ _ _ _ _ _ _ _ _ _ _ _ _ _ _ _ _ _ _
        (iblk3 V c 0 t) (iblk3 V c 1 t) (iblk3 V c 2 t) (iblk3 V c 3 t) (iblk3 V c 4 t) (iblk3 V c 5 t) (iblk3 V c 6 t) ((dat3 V c).before 7 t d7) _ (sAcc V c (t.val - 1) (Nat.lt_of_le_of_lt (Nat.sub_le _ _) t.isLt)) _ (cAcc V c (t.val - 1) (Nat.lt_of_le_of_lt (Nat.sub_le _ _) t.isLt)) _
        (Or.inr ⟨hc0, rfl, rfl⟩) (Or.inr ⟨hc1, rfl⟩) _)
      iframe H0 H1 H2 H3 H4 H5 H6 H7 Hs0 Hs1
      iintro ⟨H0, H1, H2, H3, H4, H5, H6, H7, Hs0, Hs1⟩
      iframe Hg HR Hs0 Hs1 Ho H0 H1 H2 H3 H4 H5 H6
      iexists d7; iexact H7

theorem body_obligation3 (c : Dev nD) : BodyObligation (dat3 (F := F) V c) (defs₀ (F := F)) Variants.none () Set.univ := fun t => by
  rw [bigSep_W3, bigSep_W3]
  exact sound_body3 V c t

theorem Phi3_in (c : Dev nD) : iprop((∃ r, prngReg c r) ∗ Pipeline.scopedRest (Ix := Unit) (Name := ℕ) (U := UR sig nD τ) (Lvl := ℕ) (Val := Elt F) spec3 c) ⊢ (dat3 V c).Φ 0 := by
  rw [show (dat3 V c).Φ 0 = Phi3 V c 0 (Nat.zero_le _) from rfl, Phi3_zero V c 0 _ rfl, scopedRest3_split]
  simp only [scM3_0, scM3_1, owns_whole]
  iintro ⟨Hg, ⟨H0, H1⟩, HR⟩
  iframe

theorem Phi3_out (c : Dev nD) : (dat3 V c).Φ (Fin.last cfg3.N) ⊢ iprop((∃ r, prngReg c r) ∗ Pipeline.scopedRest (Ix := Unit) (Name := ℕ) (U := UR sig nD τ) (Lvl := ℕ) (Val := Elt F) spec3 c) := by
  have hN : cfg3.N ≠ 0 := by rw [show cfg3.N = 100 from N_3]; decide
  rw [show (dat3 V c).Φ (Fin.last cfg3.N) = Phi3 V c cfg3.N (le_refl _) from rfl, Phi3_pos V c _ _ hN, scopedRest3_split]
  simp only [scM3_0, scM3_1, owns_whole]
  iintro ⟨Hg, HR, H0, H1⟩
  iframe Hg HR
  isplitl [H0] <;> iexists _ <;> iassumption

end Cert.KernelIdeal.Hand

end
-- ==== Proof.Run.lean ====
import proofs.«428218_j42571715838145_2_alg».proof.Proof.Reg0
import proofs.«428218_j42571715838145_2_alg».proof.Proof.Reg1
import proofs.«428218_j42571715838145_2_alg».proof.Proof.Reg2
import proofs.«428218_j42571715838145_2_alg».proof.Proof.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev hostOps0_W : List (Ref sig .tc) := [main_cst, main_v0, main_cst_0, main_v1, main_v2, main_v3, main_cst_1, main_v4, main_v5, main_v6, main_v7]
abbrev hostOps1_W : List (Ref sig .tc) := [main_c, main_v9, main_v10, main_c_2, main_v11, main_v12, main_v13, main_v14, main_v15, main_v16, main_cst_3, main_v17, main_v18, main_v19, main_v20, main_v21]
abbrev hostOps2_W : List (Ref sig .tc) := [main_c_4, main_v23, main_v24, main_c_5, main_v25, main_v26, main_v27, main_v28, main_v29, main_v30, main_cst_6, main_v31, main_v32, main_v33, main_v34, main_v35]
abbrev hostOps3_W : List (Ref sig .tc) := [main_c_7, main_v37, main_v38, main_c_8, main_v39, main_v40, main_v41, main_v42, main_v43, main_v44, main_cst_9, main_v45, main_v46, main_v47, main_v48, main_v49, main_v50, main_v51]

/-- No host operation allocates a buffer. -/
theorem hostOps_fresh :
    ((hostOps0 : List (HloOp τ sig (Elt F))).Forall fun op => op.fresh = ∅) ∧ ((hostOps1 : List (HloOp τ sig (Elt F))).Forall fun op => op.fresh = ∅)
    ∧ ((hostOps2 : List (HloOp τ sig (Elt F))).Forall fun op => op.fresh = ∅) ∧ ((hostOps3 : List (HloOp τ sig (Elt F))).Forall fun op => op.fresh = ∅) := by
  simp only [List.Forall]; repeat' constructor

/-- Every host operation writes one buffer, listed for its stretch. -/
theorem hostOps_writes :
    ((hostOps0 : List (HloOp τ sig (Elt F))).Forall fun op => op.writes ⊆ (hostOps0_W.map (Proc.devRef (τ := τ) .tc)).toFinset)
    ∧ ((hostOps1 : List (HloOp τ sig (Elt F))).Forall fun op => op.writes ⊆ (hostOps1_W.map (Proc.devRef (τ := τ) .tc)).toFinset)
    ∧ ((hostOps2 : List (HloOp τ sig (Elt F))).Forall fun op => op.writes ⊆ (hostOps2_W.map (Proc.devRef (τ := τ) .tc)).toFinset)
    ∧ ((hostOps3 : List (HloOp τ sig (Elt F))).Forall fun op => op.writes ⊆ (hostOps3_W.map (Proc.devRef (τ := τ) .tc)).toFinset) := by
  simp only [List.Forall]
  and_intros <;>
    (simp only [StableHlo.nullary_writes, StableHlo.unary_writes, StableHlo.binary_writes, StableHlo.ternary_writes, StableHlo.quaternary_writes,
      StableHlo.reshape_writes, StableHlo.binaryIndexed_writes, StableHlo.unaryIndexed_writes, StableHlo.nary_writes, Finset.singleton_subset_iff,
      List.mem_toFinset]; exact List.mem_map_of_mem (by decide))

variable (m : (ℓ : Loc nD τ sig) → Buf (Elt F) ℓ) (ρ : Dev nD → PrngReg)

/-- A region's exit contents keep every buffer that is not one of its arrays. -/
theorem exit_rest {gr W : ℕ} (spec : Fin W → Pipeline.WinSpec sig gr) (c : Dev nD) (V : Valuation τ sig (Elt F))
    (A : (w : Fin W) → Buf (Elt F) ((spec w).arr.view.loc (c.tc : Thread nD τ))) (b : Ref sig .tc)
    (hb : b ∉ Finset.univ.image (Pipeline.arrRef spec)) : Pipeline.withArrays spec c V A (Proc.devRef .tc b) = V (Proc.devRef .tc b) :=
  Pipeline.withArrays_of_ne spec c V A b fun w e => hb (Finset.mem_image.mpr ⟨w, Finset.mem_univ _, e⟩)

/-- A region's exit contents keep an array wherever the pipeline leaves that array as it found it. -/
theorem exit_keep {gr W : ℕ} (spec : Fin W → Pipeline.WinSpec sig gr) (hinj : Function.Injective (Pipeline.arrRef spec)) (c : Dev nD)
    (V : Valuation τ sig (Elt F)) (A : (w : Fin W) → Buf (Elt F) ((spec w).arr.view.loc (c.tc : Thread nD τ))) (b : Ref sig .tc)
    (h : ∀ w, Pipeline.arrRef spec w = b → A w = V (Proc.devRef .tc (Pipeline.arrRef spec w))) :
    Pipeline.withArrays spec c V A (Proc.devRef .tc b) = V (Proc.devRef .tc b) := by
  by_cases hb : ∀ w, Pipeline.arrRef spec w ≠ b
  · exact Pipeline.withArrays_of_ne spec c V A b hb
  · push Not at hb
    obtain ⟨w, rfl⟩ := hb
    exact (Pipeline.withArrays_arr spec hinj c V A w).trans (h w rfl)

abbrev W0 : Dev nD → Valuation τ sig (Elt F) := fun c b => (s₀ m ρ).mem ((c : Dev nD), b)

abbrev W1 : Dev nD → Valuation τ sig (Elt F) := fun c => StableHlo.after hostOps0 (W0 m ρ c)
abbrev VV1 : (c : Dev nD) → (b : Ref sig .tc) → Buf (Elt F) ((c : Thread nD τ).loc b) := fun c b => W1 m ρ c b
theorem W1_keep (c : Dev nD) (b : Ref sig .tc) (hb : b ∉ hostOps0_W) :
    W1 m ρ c (Proc.devRef .tc b) = W0 m ρ c (Proc.devRef .tc b) :=
  StableHlo.after_of_writes_sub hostOps0 _ hostOps_writes.1 hb

def W2 (c : Dev nD) : Valuation τ sig (Elt F) :=
  Pipeline.withArrays spec0 c (W1 m ρ c) fun w => (dat0 (VV1 m ρ) c).arrAt w cfg0.N
abbrev VV2 : (c : Dev nD) → (b : Ref sig .tc) → Buf (Elt F) ((c : Thread nD τ).loc b) := fun c b => W2 m ρ c b
theorem W2_arr (c : Dev nD) (w : Fin cfg0.W) :
    W2 m ρ c (Proc.devRef .tc (Pipeline.arrRef spec0 w)) = (dat0 (VV1 m ρ) c).arrAt w cfg0.N :=
  Pipeline.withArrays_arr spec0 launch0.win.arr_inj c _ _ w
theorem W2_keep (c : Dev nD) (b : Ref sig .tc) (hb : b ≠ main_v8) :
    W2 m ρ c (Proc.devRef .tc b) = W1 m ρ c (Proc.devRef .tc b) :=
  exit_keep spec0 launch0.win.arr_inj c _ _ b fun w e =>
    ((dat0 (VV1 m ρ) c).arrAt_in w (by subst e; revert hb; revert w; decide) _).trans (A_eq0 (VV1 m ρ) c w)

abbrev W3 : Dev nD → Valuation τ sig (Elt F) := fun c => StableHlo.after hostOps1 (W2 m ρ c)
abbrev VV3 : (c : Dev nD) → (b : Ref sig .tc) → Buf (Elt F) ((c : Thread nD τ).loc b) := fun c b => W3 m ρ c b

theorem W3_keep (c : Dev nD) (b : Ref sig .tc) (hb : b ∉ hostOps1_W) :
    W3 m ρ c (Proc.devRef .tc b) = W2 m ρ c (Proc.devRef .tc b) :=
  StableHlo.after_of_writes_sub hostOps1 _ hostOps_writes.2.1 hb

def W4 (c : Dev nD) : Valuation τ sig (Elt F) :=
  Pipeline.withArrays spec1 c (W3 m ρ c) fun w => (dat1 (VV3 m ρ) c).arrAt w cfg1.N
abbrev VV4 : (c : Dev nD) → (b : Ref sig .tc) → Buf (Elt F) ((c : Thread nD τ).loc b) := fun c b => W4 m ρ c b
theorem W4_arr (c : Dev nD) (w : Fin cfg1.W) :
    W4 m ρ c (Proc.devRef .tc (Pipeline.arrRef spec1 w)) = (dat1 (VV3 m ρ) c).arrAt w cfg1.N :=
  Pipeline.withArrays_arr spec1 launch1.win.arr_inj c _ _ w
theorem W4_keep (c : Dev nD) (b : Ref sig .tc) (hb : b ≠ main_v22) :
    W4 m ρ c (Proc.devRef .tc b) = W3 m ρ c (Proc.devRef .tc b) :=
  exit_keep spec1 launch1.win.arr_inj c _ _ b fun w e =>
    ((dat1 (VV3 m ρ) c).arrAt_in w (by subst e; revert hb; revert w; decide) _).trans (A_eq1 (VV3 m ρ) c w)

abbrev W5 : Dev nD → Valuation τ sig (Elt F) := fun c => StableHlo.after hostOps2 (W4 m ρ c)
abbrev VV5 : (c : Dev nD) → (b : Ref sig .tc) → Buf (Elt F) ((c : Thread nD τ).loc b) := fun c b => W5 m ρ c b

theorem W5_keep (c : Dev nD) (b : Ref sig .tc) (hb : b ∉ hostOps2_W) :
    W5 m ρ c (Proc.devRef .tc b) = W4 m ρ c (Proc.devRef .tc b) :=
  StableHlo.after_of_writes_sub hostOps2 _ hostOps_writes.2.2.1 hb

def W6 (c : Dev nD) : Valuation τ sig (Elt F) :=
  Pipeline.withArrays spec2 c (W5 m ρ c) fun w => (dat2 (VV5 m ρ) c).arrAt w cfg2.N
abbrev VV6 : (c : Dev nD) → (b : Ref sig .tc) → Buf (Elt F) ((c : Thread nD τ).loc b) := fun c b => W6 m ρ c b
theorem W6_arr (c : Dev nD) (w : Fin cfg2.W) :
    W6 m ρ c (Proc.devRef .tc (Pipeline.arrRef spec2 w)) = (dat2 (VV5 m ρ) c).arrAt w cfg2.N :=
  Pipeline.withArrays_arr spec2 launch2.win.arr_inj c _ _ w
theorem W6_keep (c : Dev nD) (b : Ref sig .tc) (hb : b ≠ main_v36) :
    W6 m ρ c (Proc.devRef .tc b) = W5 m ρ c (Proc.devRef .tc b) :=
  exit_keep spec2 launch2.win.arr_inj c _ _ b fun w e =>
    ((dat2 (VV5 m ρ) c).arrAt_in w (by subst e; revert hb; revert w; decide) _).trans (A_eq2 (VV5 m ρ) c w)

abbrev W7 : Dev nD → Valuation τ sig (Elt F) := fun c => StableHlo.after hostOps3 (W6 m ρ c)
abbrev VV7 : (c : Dev nD) → (b : Ref sig .tc) → Buf (Elt F) ((c : Thread nD τ).loc b) := fun c b => W7 m ρ c b

theorem W7_keep (c : Dev nD) (b : Ref sig .tc) (hb : b ∉ hostOps3_W) :
    W7 m ρ c (Proc.devRef .tc b) = W6 m ρ c (Proc.devRef .tc b) :=
  StableHlo.after_of_writes_sub hostOps3 _ hostOps_writes.2.2.2 hb

def W8 (c : Dev nD) : Valuation τ sig (Elt F) :=
  Pipeline.withArrays spec3 c (W7 m ρ c) fun w => (dat3 (VV7 m ρ) c).arrAt w cfg3.N
abbrev VV8 : (c : Dev nD) → (b : Ref sig .tc) → Buf (Elt F) ((c : Thread nD τ).loc b) := fun c b => W8 m ρ c b
theorem W8_arr (c : Dev nD) (w : Fin cfg3.W) :
    W8 m ρ c (Proc.devRef .tc (Pipeline.arrRef spec3 w)) = (dat3 (VV7 m ρ) c).arrAt w cfg3.N :=
  Pipeline.withArrays_arr spec3 launch3.win.arr_inj c _ _ w
theorem W8_keep (c : Dev nD) (b : Ref sig .tc) (hb : b ≠ main_v52) :
    W8 m ρ c (Proc.devRef .tc b) = W7 m ρ c (Proc.devRef .tc b) :=
  exit_keep spec3 launch3.win.arr_inj c _ _ b fun w e =>
    ((dat3 (VV7 m ρ) c).arrAt_in w (by subst e; revert hb; revert w; decide) _).trans (A_eq3 (VV7 m ρ) c w)

theorem W8_keep_all (c : Dev nD) (b : Ref sig .tc) (h0 : b ∉ hostOps0_W) (h1 : b ∉ hostOps1_W) (h2 : b ∉ hostOps2_W)
    (h3 : b ∉ hostOps3_W) (o0 : b ≠ main_v8) (o1 : b ≠ main_v22) (o2 : b ≠ main_v36) (o3 : b ≠ main_v52) :
    W8 m ρ c (Proc.devRef .tc b) = m ((c : Thread nD τ).loc b) :=
  (W8_keep m ρ c b o3).trans <| (W7_keep m ρ c b h3).trans <| (W6_keep m ρ c b o2).trans <| (W5_keep m ρ c b h2).trans <|
    (W4_keep m ρ c b o1).trans <| (W3_keep m ρ c b h1).trans <| (W2_keep m ρ c b o0).trans <| (W1_keep m ρ c b h0).trans rfl

abbrev admH : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) admH p) c
  | ⟨0, _⟩ => fun c => dat0 (VV1 m ρ) c
  | ⟨1, _⟩ => fun c => dat1 (VV3 m ρ) c
  | ⟨2, _⟩ => fun c => dat2 (VV5 m ρ) c
  | ⟨3, _⟩ => fun c => dat3 (VV7 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W8 m ρ c) ∗ ∃ r, prngReg c r)

theorem ΦA_in {gr W : ℕ} (spec : Fin W → Pipeline.WinSpec sig gr) (c : Dev nD) :
    iprop((∃ r, prngReg c r) ∗ Pipeline.scopedRest (Ix := Unit) (Name := ℕ) (U := UR sig nD τ) (Lvl := ℕ) (Val := Elt F) spec c) ⊢ (Pipeline.ΦA (U := UR sig nD τ) (Val := Elt F) spec c : sProp 𝕄) := by
  unfold Pipeline.ΦA; iintro ⟨Hr, Hp⟩; iframe
theorem ΦA_out {gr W : ℕ} (spec : Fin W → Pipeline.WinSpec sig gr) (c : Dev nD) :
    (Pipeline.ΦA (U := UR sig nD τ) (Val := Elt F) spec c : sProp 𝕄) ⊢ iprop((∃ r, prngReg c r) ∗ Pipeline.scopedRest (Ix := Unit) (Name := ℕ) (U := UR sig nD τ) (Lvl := ℕ) (Val := Elt F) spec c) := by
  unfold Pipeline.ΦA; iintro ⟨Hp, Hr⟩; iframe

set_option backward.isDefEq.respectTransparency.types false in
/-- One kernel region as a segment of the run, taking every buffer from the contents `Wp` to the contents `Wq`: the
    four regions differ only in these parameters. -/
def regSeg (p : Fin 4) (lf : Pipeline.LaunchFacts (nD := nD) (τ := τ) cfgs p) (Wp Wq : Dev nD → Valuation τ sig (Elt F))
    (hbody : ∀ c, BodyObligation (pdats m ρ p c) (defs₀ (F := F)) 𝒱₀ () Set.univ)
    (hq : ∀ c w, (pdats m ρ p c).q w = fullShare) (howed : ∀ c t, (pdats m ρ p c).owed t = 0)
    (hrec : ∀ c x, x ∈ (pdats m ρ p c).recorded 0)
    (hA : ∀ c w, (pdats m ρ p c).A w = Wp c (Pipeline.arrRef (cfgs p).spec w))
    (hF : ∀ c w, (pdats m ρ p c).arrAt w (cfgs p).N = Wq c (Pipeline.arrRef (cfgs p).spec w))
    (hrest : ∀ c (b : Ref sig .tc), b ∉ Finset.univ.image (Pipeline.arrRef (cfgs p).spec) → Wq c b = Wp c b)
    (hin : ∀ c, iprop((∃ r, prngReg c r) ∗ Pipeline.scopedRest (Ix := Unit) (Name := ℕ) (U := UR sig nD τ) (Lvl := ℕ) (Val := Elt F) (cfgs p).spec c) ⊢ (pdats m ρ p c).Φ 0)
    (hout : ∀ c, (pdats m ρ p c).Φ (Fin.last _) ⊢ iprop((∃ r, prngReg c r) ∗ Pipeline.scopedRest (Ix := Unit) (Name := ℕ) (U := UR sig nD τ) (Lvl := ℕ) (Val := Elt F) (cfgs p).spec c)) :
    Pipeline.RegionSeg (pcfgs (F := F)) admH (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wp c) ∗ R c)
  post c := iprop(StableHlo.held (c : Thread nD τ) (Pipeline.ucRefs τ sig) (Wq c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wp c b)
  hentry c := by
    rw [Pipeline.ownSems0_none]
    have hsplit := Pipeline.arrays_of_unscopedBufs (p := p) (pcfgs (F := F)) admH (pdats m ρ) lf.win lf.arr_whole c ((pdats m ρ p c).share_full (hq c)) (fun b => Wp c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun x _ => Or.inl (hrec c x)
      iexact HO
    isplitl [Hp]; · iexact Hp
    iexact Hrest
  hin c := by
    iintro ⟨Hp, -, Hr⟩
    iapply (hin c)
    isplitl [Hp]; · iexact Hp
    iexact Hr
  hout c := by
    rw [Pipeline.ownSems0_none]
    iintro H
    ihave H' := (hout c) $$ H
    icases H' with ⟨Hp, Hr⟩
    isplitl [Hp]; · iexact Hp
    isplitr; · iempintro
    iexact Hr
  hexit c := by
    have hjoin := Pipeline.unscopedBufs_of_arrays (p := p) (pcfgs (F := F)) admH (Ix := Unit) (Name := ℕ) (U := UR sig nD τ) (Lvl := ℕ)
      lf.win lf.arr_whole c (pdats m ρ) ((pdats m ρ p c).share_full (hq c)) (fun b => Wp c b) (fun b => Wq c b) ((pdats m ρ p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

def reg0 := regSeg m ρ 0 launch0 (W1 m ρ) (W2 m ρ) (body_obligation0 (VV1 m ρ)) (fun _ _ => rfl) (fun _ _ => rfl) (fun _ _ => trivial) (fun _ _ => rfl)
  (fun c w => (W2_arr m ρ c w).symm) (fun c => exit_rest spec0 c _ _) (ΦA_in spec0) (ΦA_out spec0)
def reg1 := regSeg m ρ 1 launch1 (W3 m ρ) (W4 m ρ) (body_obligation1 (VV3 m ρ)) (fun _ _ => rfl) (fun _ _ => rfl) (fun _ _ => trivial) (fun _ _ => rfl)
  (fun c w => (W4_arr m ρ c w).symm) (fun c => exit_rest spec1 c _ _) (ΦA_in spec1) (ΦA_out spec1)
def reg2 := regSeg m ρ 2 launch2 (W5 m ρ) (W6 m ρ) (body_obligation2 (VV5 m ρ)) (fun _ _ => rfl) (fun _ _ => rfl) (fun _ _ => trivial) (fun _ _ => rfl)
  (fun c w => (W6_arr m ρ c w).symm) (fun c => exit_rest spec2 c _ _) (ΦA_in spec2) (ΦA_out spec2)
def reg3 := regSeg m ρ 3 launch3 (W7 m ρ) (W8 m ρ) (body_obligation3 (VV7 m ρ)) (fun _ _ => rfl) (fun _ _ => rfl) (fun _ _ => trivial) (fun _ _ => rfl)
  (fun c w => (W8_arr m ρ c w).symm) (fun c => exit_rest spec3 c _ _) (Phi3_in (VV7 m ρ)) (Phi3_out (VV7 m ρ))

abbrev segsH : List (Pipeline.Seg (pcfgs (F := F)) admH (pdats m ρ) () defs₀ 𝒱₀ L lv) :=
  [ .host (hseg hostOps0 hostOps0_sub hostOps_fresh.1 (W0 m ρ)),
    .region (reg0 m ρ),
    .host (hseg hostOps1 hostOps1_sub hostOps_fresh.2.1 (W2 m ρ)),
    .region (reg1 m ρ),
    .host (hseg hostOps2 hostOps2_sub hostOps_fresh.2.2.1 (W4 m ρ)),
    .region (reg2 m ρ),
    .host (hseg hostOps3 hostOps3_sub hostOps_fresh.2.2.2 (W6 m ρ)),
    .region (reg3 m ρ) ]

theorem main_run (c : Dev nD) : main (F := F) c = Pipeline.Seg.run (segsH m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) admH (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

abbrev argRefs : List (Ref sig .tc) := [main_arg0, main_arg1, main_arg2, main_arg3, main_arg4, main_arg5, main_arg6, main_arg7, main_arg8, main_arg9, main_arg10, main_arg11]

/-- No host stretch writes an argument and no region has one as its output, so the arguments end as launched. -/
theorem arg_kept (c : Dev nD) (b : Ref sig .tc) (hb : b ∈ argRefs) :
    Proc.devRef .tc b ∈ Pipeline.ucRefs τ sig ∧ W8 m ρ c (Proc.devRef .tc b) = m ((c : Thread nD τ).loc b) := by
  obtain ⟨hu, h0, h1, h2, h3, o0, o1, o2, o3⟩ := (by decide : ∀ b ∈ argRefs, ¬ (Proc.devRef .tc b : DevRef τ sig).isScoped ∧ b ∉ hostOps0_W
    ∧ b ∉ hostOps1_W ∧ b ∉ hostOps2_W ∧ b ∉ hostOps3_W ∧ b ≠ main_v8 ∧ b ≠ main_v22 ∧ b ≠ main_v36 ∧ b ≠ main_v52) b hb
  exact ⟨mem_uc b hu, W8_keep_all m ρ c b h0 h1 h2 h3 o0 o1 o2 o3⟩

theorem run_result : θ_run defs (onTc (τ := τ) (main (F := F))) ⟨m, fun _ => 0, ρ⟩ (fun r => ∀ c : Dev nD,
      r.2.mem ((c.tc : Thread nD τ).loc main_v52) = (dat3 (VV7 m ρ) c).arrAt 7 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    have k : ∀ b ∈ argRefs, r.2.mem ((c.tc : Thread nD τ).loc b) = m ((c.tc : Thread nD τ).loc b) := fun b hb =>
      (h c _ (arg_kept m ρ c b hb).1).trans (arg_kept m ρ c b hb).2
    ⟨(h c _ (mem_uc main_v52 (by decide))).trans (W8_arr m ρ c 7), k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide)⟩)
    (run_all m ρ)

end Cert.KernelIdeal.Hand

end
-- ==== Proof.BitsReg0.lean ====
import proofs.«428218_j42571715838145_2_alg».proof.Proof.KernelLaunch
import proofs.«428218_j42571715838145_2_alg».proof.Proof.Gen.Kernel.Skeleton
import proofs.«428218_j42571715838145_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x64 := Rect.unit (s := S5000x64) ![0, 0] S5000x64.size inb_S5000x64_S5000x64_0_0
abbrev r0_1 : Rect S64x128 := Rect.unit (s := S64x128) ![0, 0] S64x128.size inb_S64x128_S64x128_0_0
abbrev r0_2 : Rect S5000x1 := Rect.unit (s := S5000x1) ![0, 0] S5000x1.size inb_S5000x1_S5000x1_0_0
abbrev r0_3 : Rect S5000x128 := Rect.unit (s := S5000x128) ![0, 0] S5000x128.size inb_S5000x128_S5000x128_0_0

def out0_3 (x0 : Vec F S5000x64 .f32) (x1 : Vec F S64x128 .f32) (x2 : Vec F S5000x1 .f32) : Vec F S5000x128 .bf16 :=
  View.canon [⟨r0_3, k0_pay1 (View.ld x0 r0_0) (View.ld x1 r0_1) (View.ld x2 r0_2)⟩]

theorem cover0_3 (p0 : Vec F S5000x128 .bf16) (y : S5000x128.Idx) :
    ∃ pc ∈ ([⟨r0_3, p0⟩] : List (View.Piece (Elt F) S5000x128 .bf16)), y ∈ pc.1.set :=
  View.cover_of_tiled [⟨r0_3, p0⟩] S5000x128.size (by rfl) y

set_option maxHeartbeats 1000000 in

theorem sound_kernel0 (c : Dev nD) (E : Set ℕ) (i : grid0.Coords)
    (arg1 : Memref sig .tc .vmem S5000x64 .f32) (harg1 : arg1.IsWhole) (arg2 : Memref sig .tc .vmem S64x128 .f32) (harg2 : arg2.IsWhole)
    (arg3 : Memref sig .tc .vmem S5000x1 .f32) (harg3 : arg3.IsWhole) (arg4 : Memref sig .tc .vmem S5000x128 .bf16) (harg4 : arg4.IsWhole)
    (x0 : Vec F S5000x64 .f32) (x1 : Vec F S64x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__layer1_kernel i arg1 harg1 arg2 harg2 arg3 harg3 arg4 harg4) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) : (dat0 V c).after 3 t = out0_3 (iblk0 V c 0 t) (iblk0 V c 1 t) (iblk0 V c 2 t) := by
  dsimp only [dat0]

/-- What the body finds in each input window at a point is that window's block of the array at region entry. -/
theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) := by
  refine ⟨?_, ?_, ?_⟩ <;>
    exact fun d => ((dat0 V c).before_in_eq_fetched _ rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  obtain ⟨b0, b1, b2⟩ := before0 V c t
  simp only [b0, b1, b2]
  rw [show (dat0 V c).Φ t.succ = (dat0 V c).Φ t.castSucc from rfl,
    show (dat0 V c).owesAt () t.succ = (dat0 V c).owesAt () t.castSucc from rfl,
    show (dat0 V c).after 0 t = iblk0 V c 0 t from rfl, show (dat0 V c).after 1 t = iblk0 V c 1 t from rfl, show (dat0 V c).after 2 t = iblk0 V c 2 t from rfl, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  iframe H0 H1 H2
  isplitl [H3]; · iexists _; iexact H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsReg1.lean ====
import proofs.«428218_j42571715838145_2_alg».proof.Proof.KernelLaunch
import proofs.«428218_j42571715838145_2_alg».proof.Proof.Gen.Kernel.Skeleton
import proofs.«428218_j42571715838145_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x1 := Rect.unit (s := S5000x1) ![0, 0] S5000x1.size inb_S5000x1_S5000x1_0_0

abbrev r1_1 : Rect S5000x128 := Rect.unit (s := S5000x128) ![0, 0] S5000x128.size inb_S5000x128_S5000x128_0_0

abbrev r1_2 : Rect S1x128 := Rect.unit (s := S1x128) ![0, 0] S1x128.size inb_S1x128_S1x128_0_0

abbrev r1_3 : Rect S128x128 := Rect.unit (s := S128x128) ![0, 0] S128x128.size inb_S128x128_S128x128_0_0

def out1_5 (x0 : Vec F S5000x128 .f32) (x1 : Vec F S5000x128 .bf16) (x2 : Vec F S5000x1 .f32) (x3 : Vec F S1x128 .f32) (x4 : Vec F S128x128 .f32) : Vec F S5000x128 .bf16 :=
  View.canon [⟨r1_1, k1_pay1 (View.ld x2 r1_0) (View.ld x0 r1_1) (View.ld x1 r1_1) (View.ld x3 r1_2) (View.ld x4 r1_3)⟩]

theorem cover1_5 (p0 : Vec F S5000x128 .bf16) (y : S5000x128.Idx) :
    ∃ pc ∈ ([⟨r1_1, p0⟩] : List (View.Piece (Elt F) S5000x128 .bf16)), y ∈ pc.1.set :=
  View.cover_of_tiled [⟨r1_1, p0⟩] S5000x128.size (by rfl) y

set_option maxHeartbeats 1000000 in

theorem sound_kernel1 (c : Dev nD) (E : Set ℕ) (i : grid1.Coords) (arg1 : Memref sig .tc .vmem S5000x128 .f32) (harg1 : arg1.IsWhole) (arg2 : Memref sig .tc .vmem S5000x128 .bf16) (harg2 : arg2.IsWhole) (arg3 : Memref sig .tc .vmem S5000x1 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .bf16) (harg6 : arg6.IsWhole)
    (x0 : Vec F S5000x128 .f32) (x1 : Vec F S5000x128 .bf16) (x2 : Vec F S5000x1 .f32) (x3 : Vec F S1x128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__conv_prelude_kernel i arg1 harg1 arg2 harg2 arg3 harg3 arg4 harg4 arg5 harg5 arg6 harg6) K := by
  simp only [cc1__conv_prelude_kernel_eq_skeleton]; unfold cc1__conv_prelude_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem after1_5 (c : Dev nD) (t : Fin cfg1.N) : (dat1 V c).after 5 t = out1_5 (iblk1 V c 0 t) (iblk1 V c 1 t) (iblk1 V c 2 t) (iblk1 V c 3 t) (iblk1 V c 4 t) := by
  dsimp only [dat1]

/-- What the body finds in each input window at a point is that window's block of the array at region entry. -/
theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t)
    ∧ (∀ d, (dat1 V c).before 3 t d = iblk1 V c 3 t) ∧ (∀ d, (dat1 V c).before 4 t d = iblk1 V c 4 t) := by
  refine ⟨?_, ?_, ?_, ?_, ?_⟩ <;>
    exact fun d => ((dat1 V c).before_in_eq_fetched _ rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  obtain ⟨b0, b1, b2, b3, b4⟩ := before1 V c t
  simp only [b0, b1, b2, b3, b4]
  rw [show (dat1 V c).Φ t.succ = (dat1 V c).Φ t.castSucc from rfl,
    show (dat1 V c).owesAt () t.succ = (dat1 V c).owesAt () t.castSucc from rfl,
    show (dat1 V c).after 0 t = iblk1 V c 0 t from rfl, show (dat1 V c).after 1 t = iblk1 V c 1 t from rfl, show (dat1 V c).after 2 t = iblk1 V c 2 t from rfl,
    show (dat1 V c).after 3 t = iblk1 V c 3 t from rfl, show (dat1 V c).after 4 t = iblk1 V c 4 t from rfl, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  iframe H0 H1 H2 H3 H4
  isplitl [H5]; · iexists _; iexact H5
  iintro ⟨H0, H1, H2, H3, H4, H5⟩
  iframe

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsReg2.lean ====
import proofs.«428218_j42571715838145_2_alg».proof.Proof.KernelLaunch
import proofs.«428218_j42571715838145_2_alg».proof.Proof.Gen.Kernel.Skeleton
import proofs.«428218_j42571715838145_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x1 := Rect.unit (s := S5000x1) ![0, 0] S5000x1.size inb_S5000x1_S5000x1_0_0

abbrev r2_1 : Rect S5000x128 := Rect.unit (s := S5000x128) ![0, 0] S5000x128.size inb_S5000x128_S5000x128_0_0

abbrev r2_2 : Rect S1x128 := Rect.unit (s := S1x128) ![0, 0] S1x128.size inb_S1x128_S1x128_0_0

abbrev r2_3 : Rect S128x128 := Rect.unit (s := S128x128) ![0, 0] S128x128.size inb_S128x128_S128x128_0_0

def out2_5 (x0 : Vec F S5000x128 .f32) (x1 : Vec F S5000x128 .bf16) (x2 : Vec F S5000x1 .f32) (x3 : Vec F S1x128 .f32) (x4 : Vec F S128x128 .f32) : Vec F S5000x128 .bf16 :=
  View.canon [⟨r2_1, k2_pay1 (View.ld x2 r2_0) (View.ld x0 r2_1) (View.ld x1 r2_1) (View.ld x3 r2_2) (View.ld x4 r2_3)⟩]

theorem cover2_5 (p0 : Vec F S5000x128 .bf16) (y : S5000x128.Idx) :
    ∃ pc ∈ ([⟨r2_1, p0⟩] : List (View.Piece (Elt F) S5000x128 .bf16)), y ∈ pc.1.set :=
  View.cover_of_tiled [⟨r2_1, p0⟩] S5000x128.size (by rfl) y

set_option maxHeartbeats 1000000 in

theorem sound_kernel2 (c : Dev nD) (E : Set ℕ) (i : grid2.Coords) (arg1 : Memref sig .tc .vmem S5000x128 .f32) (harg1 : arg1.IsWhole) (arg2 : Memref sig .tc .vmem S5000x128 .bf16) (harg2 : arg2.IsWhole) (arg3 : Memref sig .tc .vmem S5000x1 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .bf16) (harg6 : arg6.IsWhole)
    (x0 : Vec F S5000x128 .f32) (x1 : Vec F S5000x128 .bf16) (x2 : Vec F S5000x1 .f32) (x3 : Vec F S1x128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__conv_prelude_kernel i arg1 harg1 arg2 harg2 arg3 harg3 arg4 harg4 arg5 harg5 arg6 harg6) K := by
  simp only [cc2__conv_prelude_kernel_eq_skeleton]; unfold cc2__conv_prelude_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_5 (c : Dev nD) (t : Fin cfg2.N) : (dat2 V c).after 5 t = out2_5 (iblk2 V c 0 t) (iblk2 V c 1 t) (iblk2 V c 2 t) (iblk2 V c 3 t) (iblk2 V c 4 t) := by
  dsimp only [dat2]

/-- What the body finds in each input window at a point is that window's block of the array at region entry. -/
theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t)
    ∧ (∀ d, (dat2 V c).before 3 t d = iblk2 V c 3 t) ∧ (∀ d, (dat2 V c).before 4 t d = iblk2 V c 4 t) := by
  refine ⟨?_, ?_, ?_, ?_, ?_⟩ <;>
    exact fun d => ((dat2 V c).before_in_eq_fetched _ rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  obtain ⟨b0, b1, b2, b3, b4⟩ := before2 V c t
  simp only [b0, b1, b2, b3, b4]
  rw [show (dat2 V c).Φ t.succ = (dat2 V c).Φ t.castSucc from rfl,
    show (dat2 V c).owesAt () t.succ = (dat2 V c).owesAt () t.castSucc from rfl,
    show (dat2 V c).after 0 t = iblk2 V c 0 t from rfl, show (dat2 V c).after 1 t = iblk2 V c 1 t from rfl, show (dat2 V c).after 2 t = iblk2 V c 2 t from rfl,
    show (dat2 V c).after 3 t = iblk2 V c 3 t from rfl, show (dat2 V c).after 4 t = iblk2 V c 4 t from rfl, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  iframe H0 H1 H2 H3 H4
  isplitl [H5]; · iexists _; iexact H5
  iintro ⟨H0, H1, H2, H3, H4, H5⟩
  iframe

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsReg3.lean ====
import proofs.«428218_j42571715838145_2_alg».proof.Proof.KernelLaunch
import proofs.«428218_j42571715838145_2_alg».proof.Proof.Gen.Kernel.Skeleton
import proofs.«428218_j42571715838145_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def sAcc (c : Dev nD) : (n : ℕ) → n < cfg3.N → Vec F S1024x128 .f32
  | 0, h => k3_pay7 (iblk3 V c 2 ⟨0, h⟩) (iblk3 V c 0 ⟨0, h⟩) (iblk3 V c 1 ⟨0, h⟩) (iblk3 V c 3 ⟨0, h⟩) (iblk3 V c 4 ⟨0, h⟩) k3_pay3
  | n + 1, h => k3_pay7 (iblk3 V c 2 ⟨n + 1, h⟩) (iblk3 V c 0 ⟨n + 1, h⟩) (iblk3 V c 1 ⟨n + 1, h⟩) (iblk3 V c 3 ⟨n + 1, h⟩) (iblk3 V c 4 ⟨n + 1, h⟩) (sAcc c n (Nat.lt_of_succ_lt h))

def cAcc (c : Dev nD) : (n : ℕ) → n < cfg3.N → Vec F S1024x1 .f32
  | 0, h => k3_pay1 (k3_pay6 (iblk3 V c 4 ⟨0, h⟩)) k3_pay4
  | n + 1, h => k3_pay1 (k3_pay6 (iblk3 V c 4 ⟨n + 1, h⟩)) (cAcc c n (Nat.lt_of_succ_lt h))

theorem sAcc_zero (c : Dev nD) (h : 0 < cfg3.N) :
    sAcc V c 0 h = k3_pay7 (iblk3 V c 2 ⟨0, h⟩) (iblk3 V c 0 ⟨0, h⟩) (iblk3 V c 1 ⟨0, h⟩) (iblk3 V c 3 ⟨0, h⟩) (iblk3 V c 4 ⟨0, h⟩) k3_pay3 := rfl
theorem sAcc_succ (c : Dev nD) (n : ℕ) (h : n + 1 < cfg3.N) :
    sAcc V c (n + 1) h = k3_pay7 (iblk3 V c 2 ⟨n + 1, h⟩) (iblk3 V c 0 ⟨n + 1, h⟩) (iblk3 V c 1 ⟨n + 1, h⟩) (iblk3 V c 3 ⟨n + 1, h⟩) (iblk3 V c 4 ⟨n + 1, h⟩) (sAcc V c n (Nat.lt_of_succ_lt h)) := rfl
theorem cAcc_zero (c : Dev nD) (h : 0 < cfg3.N) :
    cAcc V c 0 h = k3_pay1 (k3_pay6 (iblk3 V c 4 ⟨0, h⟩)) k3_pay4 := rfl
theorem cAcc_succ (c : Dev nD) (n : ℕ) (h : n + 1 < cfg3.N) :
    cAcc V c (n + 1) h = k3_pay1 (k3_pay6 (iblk3 V c 4 ⟨n + 1, h⟩)) (cAcc V c n (Nat.lt_of_succ_lt h)) := rfl

theorem sAcc_pos (c : Dev nD) (t : Fin cfg3.N) (ht : t.val ≠ 0) :
    sAcc V c t.val t.isLt = k3_pay7 (iblk3 V c 2 t) (iblk3 V c 0 t) (iblk3 V c 1 t) (iblk3 V c 3 t) (iblk3 V c 4 t) (sAcc V c (t.val - 1) (Nat.lt_of_le_of_lt (Nat.sub_le _ _) t.isLt)) := by
  obtain ⟨n, hn⟩ := t
  cases n with
  | zero => exact absurd rfl ht
  | succ n => rfl
theorem cAcc_pos (c : Dev nD) (t : Fin cfg3.N) (ht : t.val ≠ 0) :
    cAcc V c t.val t.isLt = k3_pay1 (k3_pay6 (iblk3 V c 4 t)) (cAcc V c (t.val - 1) (Nat.lt_of_le_of_lt (Nat.sub_le _ _) t.isLt)) := by
  obtain ⟨n, hn⟩ := t
  cases n with
  | zero => exact absurd rfl ht
  | succ n => rfl

theorem sAcc_first (c : Dev nD) (t : Fin cfg3.N) (ht : t.val = 0) :
    sAcc V c t.val t.isLt = k3_pay7 (iblk3 V c 2 t) (iblk3 V c 0 t) (iblk3 V c 1 t) (iblk3 V c 3 t) (iblk3 V c 4 t) k3_pay3 := by
  obtain ⟨n, hn⟩ := t; subst ht; rfl
theorem cAcc_first (c : Dev nD) (t : Fin cfg3.N) (ht : t.val = 0) :
    cAcc V c t.val t.isLt = k3_pay1 (k3_pay6 (iblk3 V c 4 t)) k3_pay4 := by
  obtain ⟨n, hn⟩ := t; subst ht; rfl

theorem hz2 : (![0, 0] : Fin 2 → ℕ) = fun _ => 0 := by
  funext a; fin_cases a <;> rfl

theorem read_writes_unit_zero {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f ((⟨Rect.unit off S.size inb, w⟩ : View.Piece Val S e) :: L)
    (fun y => ⟨⟨Rect.unit off S.size inb, w⟩, List.mem_cons_self, View.mem_set_unit_zero h inb y⟩)).trans
    (View.canon_cons_unit_zero h inb w L)

abbrev r3_7 : Rect S1000x1 := Rect.unit (s := S1000x1) ![0, 0] S1000x1.size inb_S1000x1_S1000x1_0_0

def out3_7 (c : Dev nD) (t : Fin cfg3.N) : Vec F S1000x1 .f32 :=
  View.canon [⟨r3_7, k3_pay2 (sAcc V c t.val t.isLt) (cAcc V c t.val t.isLt) (iblk3 V c 5 t) (iblk3 V c 6 t)⟩]

theorem out3_7_eq (c : Dev nD) (t : Fin cfg3.N) :
    out3_7 V c t = k3_pay2 (sAcc V c t.val t.isLt) (cAcc V c t.val t.isLt) (iblk3 V c 5 t) (iblk3 V c 6 t) := by
  unfold out3_7; exact View.canon_unit_zero hz2 _ _

abbrev scM3_0 : Memref sig .tc .vmem S1024x128 .f32 := Memref.whole cc3_scratch0
abbrev scM3_1 : Memref sig .tc .vmem S1024x1 .f32 := Memref.whole cc3_scratch1

def Phi3 (c : Dev nD) : (n : ℕ) → n ≤ cfg3.N → sProp 𝕄
  | 0, _ => iprop((∃ r, prngReg c r) ∗ Pipeline.scopedRestBut (Ix := Unit) (Name := ℕ) (U := UR sig nD τ) (Lvl := ℕ) (Val := Elt F) spec3 c [cc3_scratch0, cc3_scratch1]
      ∗ (∃ d, owns (c : Thread nD τ) scM3_0 fullShare d) ∗ (∃ d, owns (c : Thread nD τ) scM3_1 fullShare d))
  | n + 1, hn => iprop((∃ r, prngReg c r) ∗ Pipeline.scopedRestBut (Ix := Unit) (Name := ℕ) (U := UR sig nD τ) (Lvl := ℕ) (Val := Elt F) spec3 c [cc3_scratch0, cc3_scratch1]
      ∗ owns (c : Thread nD τ) scM3_0 fullShare (sAcc V c n hn) ∗ owns (c : Thread nD τ) scM3_1 fullShare (cAcc V c n hn))

theorem Phi3_zero (c : Dev nD) (n : ℕ) (h : n ≤ cfg3.N) (hz : n = 0) :
    Phi3 V c n h = iprop((∃ r, prngReg c r) ∗ Pipeline.scopedRestBut (Ix := Unit) (Name := ℕ) (U := UR sig nD τ) (Lvl := ℕ) (Val := Elt F) spec3 c [cc3_scratch0, cc3_scratch1]
      ∗ (∃ d, owns (c : Thread nD τ) scM3_0 fullShare d) ∗ (∃ d, owns (c : Thread nD τ) scM3_1 fullShare d)) := by
  subst hz; rfl
theorem Phi3_succ (c : Dev nD) (n : ℕ) (hn : n < cfg3.N) :
    Phi3 V c (n + 1) hn = iprop((∃ r, prngReg c r) ∗ Pipeline.scopedRestBut (Ix := Unit) (Name := ℕ) (U := UR sig nD τ) (Lvl := ℕ) (Val := Elt F) spec3 c [cc3_scratch0, cc3_scratch1]
      ∗ owns (c : Thread nD τ) scM3_0 fullShare (sAcc V c n hn) ∗ owns (c : Thread nD τ) scM3_1 fullShare (cAcc V c n hn)) := rfl
theorem Phi3_pos (c : Dev nD) (n : ℕ) (h : n ≤ cfg3.N) (hz : n ≠ 0) :
    Phi3 V c n h = iprop((∃ r, prngReg c r) ∗ Pipeline.scopedRestBut (Ix := Unit) (Name := ℕ) (U := UR sig nD τ) (Lvl := ℕ) (Val := Elt F) spec3 c [cc3_scratch0, cc3_scratch1]
      ∗ owns (c : Thread nD τ) scM3_0 fullShare (sAcc V c (n - 1) (by omega)) ∗ owns (c : Thread nD τ) scM3_1 fullShare (cAcc V c (n - 1) (by omega))) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 V c t
  Φ t := Phi3 V c t.val (Nat.le_of_lt_succ t.isLt)
  q _ := fullShare
  owed _ := 0

theorem A_eq3 (c : Dev nD) (w : Fin cfg3.W) : (dat3 V c).A w = V c (Pipeline.arrRef spec3 w) := rfl

theorem after3_7 (c : Dev nD) (t : Fin cfg3.N) : (dat3 V c).after 7 t = out3_7 V c t := by dsimp only [dat3]

/-- What the body finds in each input window at a point is that window's block of the array at region entry. -/
theorem before3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t)
    ∧ (∀ d, (dat3 V c).before 3 t d = iblk3 V c 3 t) ∧ (∀ d, (dat3 V c).before 4 t d = iblk3 V c 4 t) ∧ (∀ d, (dat3 V c).before 5 t d = iblk3 V c 5 t)
    ∧ (∀ d, (dat3 V c).before 6 t d = iblk3 V c 6 t) := by
  refine ⟨?_, ?_, ?_, ?_, ?_, ?_, ?_⟩ <;>
    exact fun d => ((dat3 V c).before_in_eq_fetched _ rfl (fun _ => rfl) (fun _ _ _ => rfl) (fun _ => rfl) t d).trans rfl

theorem Phi3_castSucc (c : Dev nD) (t : Fin cfg3.N) :
    (dat3 V c).Φ t.castSucc = Phi3 V c t.val (Nat.le_of_lt t.isLt) := by
  dsimp only [dat3]; simp only [Fin.coe_castSucc]

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)

abbrev cond3_1 (i : grid3.Coords) : Prop := k3_cond2 i = 1#1
theorem hcond3_1 : ∀ t : Fin cfg3.N, cond3_1 (grid3.coords t) ↔ t.val = 99 :=
  (by decide +kernel : ∀ t : Fin grid3.N, cond3_1 (grid3.coords t) ↔ t.val = 99)

theorem idleAt3_7 : ∀ t : Fin cfg3.N, ¬cond3_1 (grid3.coords t) → cfg3.idle 7 (grid3.coords t) = true := by decide +kernel
theorem noFlush3_7 : ∀ t : Fin cfg3.N, ¬cond3_1 (grid3.coords t) → (cfg3.win 7).flush t = false := by decide +kernel
theorem liveAt3_7 : ∀ t : Fin cfg3.N, cond3_1 (grid3.coords t) → cfg3.idle 7 (grid3.coords t) = false := by decide +kernel

set_option maxHeartbeats 4000000 in
/-- The pooling kernel's body: every point adds its block of rows into the two accumulators, which start from zero at
    the first point (`a0`, `a1`); the last point also stores the read-out of the updated accumulators, and every other
    point leaves the output block as it was. -/
theorem sound_kernel3 (c : Dev nD) (E : Set ℕ) (i : grid3.Coords) (arg1 : Memref sig .tc .vmem S1000x128 .f32) (harg1 : arg1.IsWhole) (arg2 : Memref sig .tc .vmem S1000x128 .bf16) (harg2 : arg2.IsWhole) (arg3 : Memref sig .tc .vmem S1000x1 .f32) (harg3 : arg3.IsWhole) (arg4 : Memref sig .tc .vmem S1x128 .f32) (harg4 : arg4.IsWhole) (arg5 : Memref sig .tc .vmem S1000x1 .i32) (harg5 : arg5.IsWhole) (arg6 : Memref sig .tc .vmem S128x1 .f32) (harg6 : arg6.IsWhole) (arg7 : Memref sig .tc .vmem S1x1 .f32) (harg7 : arg7.IsWhole) (arg8 : Memref sig .tc .vmem S1000x1 .f32) (harg8 : arg8.IsWhole) (arg9 : Memref sig .tc .vmem S1024x128 .f32) (harg9 : arg9.IsWhole) (arg10 : Memref sig .tc .vmem S1024x1 .f32) (harg10 : arg10.IsWhole)
    (x0 : Vec F S1000x128 .f32) (x1 : Vec F S1000x128 .bf16) (x2 : Vec F S1000x1 .f32) (x3 : Vec F S1x128 .f32) (x4 : Vec F S1000x1 .i32) (x5 : Vec F S128x1 .f32) (x6 : Vec F S1x1 .f32)
    (d7 r8 : Vec F S1000x1 .f32) (s0 a0 : Vec F S1024x128 .f32) (s1 a1 : Vec F S1024x1 .f32)
    (h0 : (cond3_0 i ∧ a0 = k3_pay3 ∧ a1 = k3_pay4) ∨ (¬cond3_0 i ∧ a0 = s0 ∧ a1 = s1))
    (h1 : (cond3_1 i ∧ ¬cond3_0 i ∧ r8 = k3_pay2 (k3_pay7 x2 x0 x1 x3 x4 a0) (k3_pay1 (k3_pay6 x4) a1) x5 x6) ∨ (¬cond3_1 i ∧ r8 = d7))
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare d7
        ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare r8
            ∗ owns (c : Thread nD τ) arg9 fullShare (k3_pay7 x2 x0 x1 x3 x4 a0) ∗ owns (c : Thread nD τ) arg10 fullShare (k3_pay1 (k3_pay6 x4) a1)) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8 arg9 harg9 arg10 harg10) K := by
  rcases h0 with ⟨hc0, rfl, rfl⟩ | ⟨hc0, rfl, rfl⟩ <;> rcases h1 with ⟨hc1, hn, rfl⟩ | ⟨hc1, rfl⟩
  · exact absurd hc0 hn
  all_goals
    haveI : Fact _ := ⟨hc0⟩
    haveI : Fact _ := ⟨hc1⟩
    simp only [cc3__pool_kernel_eq_skeleton]; unfold cc3__pool_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f9, %hf9, H9⟩, ⟨%f10, %hf10, H10⟩, Hk⟩
    subst hf0 hf1 hf2 hf3 hf4 hf5 hf6 hf7 hf9 hf10
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · first
      | (iexists f7; isplitr; · ipureintro; rfl
         iexact H7)
      | (iexists _; isplitr; swap; · iexact H7
         ipureintro
         sl_unfold_run_names
         rw [read_writes_unit_zero (S := S1000x1) _ _ hz2]
         simp only [View.readAt_eq_ld, View.ld_unit_zero (S := S1000x1) hz2, View.ld_unit_zero (S := S1000x128) hz2, View.ld_unit_zero (S := S1x128) hz2, View.ld_unit_zero (S := S1024x128) hz2, View.ld_unit_zero (S := S1024x1) hz2, View.ld_unit_zero (S := S128x1) hz2, View.ld_unit_zero (S := S1x1) hz2, View.readCov_unit_zero (S := S1024x128) _ hz2, View.readCov_unit_zero (S := S1024x1) _ hz2, View.readCov_unit_zero (S := S1000x1) _ hz2])
    isplitl [H9]
    · iexists _; isplitr; swap; · iexact H9
      ipureintro
      sl_unfold_run_names
      rw [read_writes_unit_zero (S := S1024x128) _ _ hz2]
      simp only [View.readAt_eq_ld, View.ld_unit_zero (S := S1000x1) hz2, View.ld_unit_zero (S := S1000x128) hz2, View.ld_unit_zero (S := S1x128) hz2, View.ld_unit_zero (S := S1024x128) hz2, View.ld_unit_zero (S := S1024x1) hz2, View.ld_unit_zero (S := S128x1) hz2, View.ld_unit_zero (S := S1x1) hz2, View.readCov_unit_zero (S := S1024x128) _ hz2, View.readCov_unit_zero (S := S1024x1) _ hz2, View.readCov_unit_zero (S := S1000x1) _ hz2]
    · iexists _; isplitr; swap; · iexact H10
      ipureintro
      sl_unfold_run_names
      rw [read_writes_unit_zero (S := S1024x1) _ _ hz2]
      simp only [View.readAt_eq_ld, View.ld_unit_zero (S := S1000x1) hz2, View.ld_unit_zero (S := S1000x128) hz2, View.ld_unit_zero (S := S1x128) hz2, View.ld_unit_zero (S := S1024x128) hz2, View.ld_unit_zero (S := S1024x1) hz2, View.ld_unit_zero (S := S128x1) hz2, View.ld_unit_zero (S := S1x1) hz2, View.readCov_unit_zero (S := S1024x128) _ hz2, View.readCov_unit_zero (S := S1024x1) _ hz2, View.readCov_unit_zero (S := S1000x1) _ hz2]

theorem leavesExact3_live (c : Dev nD) (w : Fin cfg3.W) (t : Fin cfg3.N) (hi : cfg3.idle w (cfg3.grid.coords t) = false) :
    (dat3 V c).leavesExact w t = owns (c : Thread nD τ) ((cfg3.win w).stage (cfg3.slots t w)) fullShare ((dat3 V c).after w t) := by
  unfold Dat.leavesExact; rw [hi]

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 4000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  obtain ⟨b0, b1, b2, b3, b4, b5, b6⟩ := before3 V c t
  rw [leavesExact3_live V c 0 t rfl, leavesExact3_live V c 1 t rfl, leavesExact3_live V c 2 t rfl, leavesExact3_live V c 3 t rfl, leavesExact3_live V c 4 t rfl, leavesExact3_live V c 5 t rfl, leavesExact3_live V c 6 t rfl,
    show (dat3 V c).after 0 t = iblk3 V c 0 t from rfl, show (dat3 V c).after 1 t = iblk3 V c 1 t from rfl, show (dat3 V c).after 2 t = iblk3 V c 2 t from rfl, show (dat3 V c).after 3 t = iblk3 V c 3 t from rfl, show (dat3 V c).after 4 t = iblk3 V c 4 t from rfl, show (dat3 V c).after 5 t = iblk3 V c 5 t from rfl, show (dat3 V c).after 6 t = iblk3 V c 6 t from rfl]
  simp only [b0, b1, b2, b3, b4, b5, b6]
  rw [show (dat3 V c).owesAt () t.succ = (dat3 V c).owesAt () t.castSucc from rfl,
    Phi3_castSucc V c t, show (dat3 V c).Φ t.succ = Phi3 V c (t.val + 1) t.isLt from rfl, Phi3_succ V c t.val t.isLt]
  have hN : t.val < 100 := lt_of_lt_of_eq t.isLt (show cfg3.N = 100 from N_3)
  by_cases h0 : t.val = 0
  · have hc1 : ¬cond3_1 (grid3.coords t) := fun h => by have := (hcond3_1 t).mp h; omega
    rw [Phi3_zero V c t.val _ h0, sAcc_first V c t h0, cAcc_first V c t h0,
      Dat.leavesExact_idle _ 7 t (idleAt3_7 t hc1) (noFlush3_7 t hc1)]
    iintro ⟨⟨Hg, HR, ⟨%s0, Hs0⟩, ⟨%s1, Hs1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel3 c Set.univ (grid3.coords t) _ _ _ _ _ _ _ _ _ _ _ _ _ _ _ _ _ _ _ _
      (iblk3 V c 0 t) (iblk3 V c 1 t) (iblk3 V c 2 t) (iblk3 V c 3 t) (iblk3 V c 4 t) (iblk3 V c 5 t) (iblk3 V c 6 t) ((dat3 V c).before 7 t d7) _ s0 _ s1 _
      (Or.inl ⟨(hcond3_0 t).mpr h0, rfl, rfl⟩) (Or.inr ⟨hc1, rfl⟩) _)
    iframe H0 H1 H2 H3 H4 H5 H6 H7 Hs0 Hs1
    iintro ⟨H0, H1, H2, H3, H4, H5, H6, H7, Hs0, Hs1⟩
    iframe Hg HR Hs0 Hs1 Ho H0 H1 H2 H3 H4 H5 H6
    iexists d7; iexact H7
  · have hc0 : ¬cond3_0 (grid3.coords t) := fun h => h0 ((hcond3_0 t).mp h)
    by_cases h99 : t.val = 99
    · have hc1 : cond3_1 (grid3.coords t) := (hcond3_1 t).mpr h99
      rw [Phi3_pos V c t.val _ h0, leavesExact3_live V c 7 t (liveAt3_7 t hc1), after3_7, out3_7_eq,
        sAcc_pos V c t h0, cAcc_pos V c t h0]
      iintro ⟨⟨Hg, HR, Hs0, Hs1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel3 c Set.univ (grid3.coords t) _ _ _ _ _ _ _ _ _ _ _ _ _ _ _ _ _ _ _ _
        (iblk3 V c 0 t) (iblk3 V c 1 t) (iblk3 V c 2 t) (iblk3 V c 3 t) (iblk3 V c 4 t) (iblk3 V c 5 t) (iblk3 V c 6 t) ((dat3 V c).before 7 t d7) _ (sAcc V c (t.val - 1) (Nat.lt_of_le_of_lt (Nat.sub_le _ _) t.isLt)) _ (cAcc V c (t.val - 1) (Nat.lt_of_le_of_lt (Nat.sub_le _ _) t.isLt)) _
        (Or.inr ⟨hc0, rfl, rfl⟩) (Or.inl ⟨hc1, hc0, rfl⟩) _)
      iframe H0 H1 H2 H3 H4 H5 H6 H7 Hs0 Hs1
      iintro ⟨H0, H1, H2, H3, H4, H5, H6, H7, Hs0, Hs1⟩
      iframe
    · have hc1 : ¬cond3_1 (grid3.coords t) := fun h => h99 ((hcond3_1 t).mp h)
      rw [Phi3_pos V c t.val _ h0, sAcc_pos V c t h0, cAcc_pos V c t h0,
        Dat.leavesExact_idle _ 7 t (idleAt3_7 t hc1) (noFlush3_7 t hc1)]
      iintro ⟨⟨Hg, HR, Hs0, Hs1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel3 c Set.univ (grid3.coords t) _ _ _ _ _ _ _ _ _ _ _ _ _ _ _ _ _ _ _ _
        (iblk3 V c 0 t) (iblk3 V c 1 t) (iblk3 V c 2 t) (iblk3 V c 3 t) (iblk3 V c 4 t) (iblk3 V c 5 t) (iblk3 V c 6 t) ((dat3 V c).before 7 t d7) _ (sAcc V c (t.val - 1) (Nat.lt_of_le_of_lt (Nat.sub_le _ _) t.isLt)) _ (cAcc V c (t.val - 1) (Nat.lt_of_le_of_lt (Nat.sub_le _ _) t.isLt)) _
        (Or.inr ⟨hc0, rfl, rfl⟩) (Or.inr ⟨hc1, rfl⟩) _)
      iframe H0 H1 H2 H3 H4 H5 H6 H7 Hs0 Hs1
      iintro ⟨H0, H1, H2, H3, H4, H5, H6, H7, Hs0, Hs1⟩
      iframe Hg HR Hs0 Hs1 Ho H0 H1 H2 H3 H4 H5 H6
      iexists d7; iexact H7

theorem body_obligation3 (c : Dev nD) : BodyObligation (dat3 (F := F) V c) (defs₀ (F := F)) Variants.none () Set.univ := fun t => by
  rw [bigSep_W3, bigSep_W3]
  exact sound_body3 V c t

theorem Phi3_in (c : Dev nD) : iprop((∃ r, prngReg c r) ∗ Pipeline.scopedRest (Ix := Unit) (Name := ℕ) (U := UR sig nD τ) (Lvl := ℕ) (Val := Elt F) spec3 c) ⊢ (dat3 V c).Φ 0 := by
  rw [show (dat3 V c).Φ 0 = Phi3 V c 0 (Nat.zero_le _) from rfl, Phi3_zero V c 0 _ rfl, scopedRest3_split]
  simp only [scM3_0, scM3_1, owns_whole]
  iintro ⟨Hg, ⟨H0, H1⟩, HR⟩
  iframe

theorem Phi3_out (c : Dev nD) : (dat3 V c).Φ (Fin.last cfg3.N) ⊢ iprop((∃ r, prngReg c r) ∗ Pipeline.scopedRest (Ix := Unit) (Name := ℕ) (U := UR sig nD τ) (Lvl := ℕ) (Val := Elt F) spec3 c) := by
  have hN : cfg3.N ≠ 0 := by rw [show cfg3.N = 100 from N_3]; decide
  rw [show (dat3 V c).Φ (Fin.last cfg3.N) = Phi3 V c cfg3.N (le_refl _) from rfl, Phi3_pos V c _ _ hN, scopedRest3_split]
  simp only [scM3_0, scM3_1, owns_whole]
  iintro ⟨Hg, HR, H0, H1⟩
  iframe Hg HR
  isplitl [H0] <;> iexists _ <;> iassumption

end Cert.Kernel.Hand

end
-- ==== Proof.BitsRun.lean ====
import proofs.«428218_j42571715838145_2_alg».proof.Proof.BitsReg0
import proofs.«428218_j42571715838145_2_alg».proof.Proof.BitsReg1
import proofs.«428218_j42571715838145_2_alg».proof.Proof.BitsReg2
import proofs.«428218_j42571715838145_2_alg».proof.Proof.BitsReg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev hostOps0_W : List (Ref sig .tc) := [main_cst, main_v0, main_cst_0, main_v1, main_v2, main_v3, main_cst_1, main_v4, main_v5, main_v6, main_v7]
abbrev hostOps1_W : List (Ref sig .tc) := [main_c, main_v9, main_v10, main_c_2, main_v11, main_v12, main_v13, main_v14, main_v15, main_v16, main_cst_3, main_v17, main_v18, main_v19, main_v20, main_v21]
abbrev hostOps2_W : List (Ref sig .tc) := [main_c_4, main_v23, main_v24, main_c_5, main_v25, main_v26, main_v27, main_v28, main_v29, main_v30, main_cst_6, main_v31, main_v32, main_v33, main_v34, main_v35]
abbrev hostOps3_W : List (Ref sig .tc) := [main_c_7, main_v37, main_v38, main_c_8, main_v39, main_v40, main_v41, main_v42, main_v43, main_v44, main_cst_9, main_v45, main_v46, main_v47, main_v48, main_v49, main_v50, main_v51]

/-- No host operation allocates a buffer. -/
theorem hostOps_fresh :
    ((hostOps0 : List (HloOp τ sig (Elt F))).Forall fun op => op.fresh = ∅) ∧ ((hostOps1 : List (HloOp τ sig (Elt F))).Forall fun op => op.fresh = ∅)
    ∧ ((hostOps2 : List (HloOp τ sig (Elt F))).Forall fun op => op.fresh = ∅) ∧ ((hostOps3 : List (HloOp τ sig (Elt F))).Forall fun op => op.fresh = ∅) := by
  simp only [List.Forall]; repeat' constructor

/-- Every host operation writes one buffer, listed for its stretch. -/
theorem hostOps_writes :
    ((hostOps0 : List (HloOp τ sig (Elt F))).Forall fun op => op.writes ⊆ (hostOps0_W.map (Proc.devRef (τ := τ) .tc)).toFinset)
    ∧ ((hostOps1 : List (HloOp τ sig (Elt F))).Forall fun op => op.writes ⊆ (hostOps1_W.map (Proc.devRef (τ := τ) .tc)).toFinset)
    ∧ ((hostOps2 : List (HloOp τ sig (Elt F))).Forall fun op => op.writes ⊆ (hostOps2_W.map (Proc.devRef (τ := τ) .tc)).toFinset)
    ∧ ((hostOps3 : List (HloOp τ sig (Elt F))).Forall fun op => op.writes ⊆ (hostOps3_W.map (Proc.devRef (τ := τ) .tc)).toFinset) := by
  simp only [List.Forall]
  and_intros <;>
    (simp only [StableHlo.nullary_writes, StableHlo.unary_writes, StableHlo.binary_writes, StableHlo.ternary_writes, StableHlo.quaternary_writes,
      StableHlo.reshape_writes, StableHlo.binaryIndexed_writes, StableHlo.unaryIndexed_writes, StableHlo.nary_writes, Finset.singleton_subset_iff,
      List.mem_toFinset]; exact List.mem_map_of_mem (by decide))

variable (m : (ℓ : Loc nD τ sig) → Buf (Elt F) ℓ) (ρ : Dev nD → PrngReg)

/-- A region's exit contents keep every buffer that is not one of its arrays. -/
theorem exit_rest {gr W : ℕ} (spec : Fin W → Pipeline.WinSpec sig gr) (c : Dev nD) (V : Valuation τ sig (Elt F))
    (A : (w : Fin W) → Buf (Elt F) ((spec w).arr.view.loc (c.tc : Thread nD τ))) (b : Ref sig .tc)
    (hb : b ∉ Finset.univ.image (Pipeline.arrRef spec)) : Pipeline.withArrays spec c V A (Proc.devRef .tc b) = V (Proc.devRef .tc b) :=
  Pipeline.withArrays_of_ne spec c V A b fun w e => hb (Finset.mem_image.mpr ⟨w, Finset.mem_univ _, e⟩)

/-- A region's exit contents keep an array wherever the pipeline leaves that array as it found it. -/
theorem exit_keep {gr W : ℕ} (spec : Fin W → Pipeline.WinSpec sig gr) (hinj : Function.Injective (Pipeline.arrRef spec)) (c : Dev nD)
    (V : Valuation τ sig (Elt F)) (A : (w : Fin W) → Buf (Elt F) ((spec w).arr.view.loc (c.tc : Thread nD τ))) (b : Ref sig .tc)
    (h : ∀ w, Pipeline.arrRef spec w = b → A w = V (Proc.devRef .tc (Pipeline.arrRef spec w))) :
    Pipeline.withArrays spec c V A (Proc.devRef .tc b) = V (Proc.devRef .tc b) := by
  by_cases hb : ∀ w, Pipeline.arrRef spec w ≠ b
  · exact Pipeline.withArrays_of_ne spec c V A b hb
  · push Not at hb
    obtain ⟨w, rfl⟩ := hb
    exact (Pipeline.withArrays_arr spec hinj c V A w).trans (h w rfl)

abbrev W0 : Dev nD → Valuation τ sig (Elt F) := fun c b => (s₀ m ρ).mem ((c : Dev nD), b)

abbrev W1 : Dev nD → Valuation τ sig (Elt F) := fun c => StableHlo.after hostOps0 (W0 m ρ c)
abbrev VV1 : (c : Dev nD) → (b : Ref sig .tc) → Buf (Elt F) ((c : Thread nD τ).loc b) := fun c b => W1 m ρ c b
theorem W1_keep (c : Dev nD) (b : Ref sig .tc) (hb : b ∉ hostOps0_W) :
    W1 m ρ c (Proc.devRef .tc b) = W0 m ρ c (Proc.devRef .tc b) :=
  StableHlo.after_of_writes_sub hostOps0 _ hostOps_writes.1 hb

def W2 (c : Dev nD) : Valuation τ sig (Elt F) :=
  Pipeline.withArrays spec0 c (W1 m ρ c) fun w => (dat0 (VV1 m ρ) c).arrAt w cfg0.N
abbrev VV2 : (c : Dev nD) → (b : Ref sig .tc) → Buf (Elt F) ((c : Thread nD τ).loc b) := fun c b => W2 m ρ c b
theorem W2_arr (c : Dev nD) (w : Fin cfg0.W) :
    W2 m ρ c (Proc.devRef .tc (Pipeline.arrRef spec0 w)) = (dat0 (VV1 m ρ) c).arrAt w cfg0.N :=
  Pipeline.withArrays_arr spec0 launch0.win.arr_inj c _ _ w
theorem W2_keep (c : Dev nD) (b : Ref sig .tc) (hb : b ≠ main_v8) :
    W2 m ρ c (Proc.devRef .tc b) = W1 m ρ c (Proc.devRef .tc b) :=
  exit_keep spec0 launch0.win.arr_inj c _ _ b fun w e =>
    ((dat0 (VV1 m ρ) c).arrAt_in w (by subst e; revert hb; revert w; decide) _).trans (A_eq0 (VV1 m ρ) c w)

abbrev W3 : Dev nD → Valuation τ sig (Elt F) := fun c => StableHlo.after hostOps1 (W2 m ρ c)
abbrev VV3 : (c : Dev nD) → (b : Ref sig .tc) → Buf (Elt F) ((c : Thread nD τ).loc b) := fun c b => W3 m ρ c b

theorem W3_keep (c : Dev nD) (b : Ref sig .tc) (hb : b ∉ hostOps1_W) :
    W3 m ρ c (Proc.devRef .tc b) = W2 m ρ c (Proc.devRef .tc b) :=
  StableHlo.after_of_writes_sub hostOps1 _ hostOps_writes.2.1 hb

def W4 (c : Dev nD) : Valuation τ sig (Elt F) :=
  Pipeline.withArrays spec1 c (W3 m ρ c) fun w => (dat1 (VV3 m ρ) c).arrAt w cfg1.N
abbrev VV4 : (c : Dev nD) → (b : Ref sig .tc) → Buf (Elt F) ((c : Thread nD τ).loc b) := fun c b => W4 m ρ c b
theorem W4_arr (c : Dev nD) (w : Fin cfg1.W) :
    W4 m ρ c (Proc.devRef .tc (Pipeline.arrRef spec1 w)) = (dat1 (VV3 m ρ) c).arrAt w cfg1.N :=
  Pipeline.withArrays_arr spec1 launch1.win.arr_inj c _ _ w
theorem W4_keep (c : Dev nD) (b : Ref sig .tc) (hb : b ≠ main_v22) :
    W4 m ρ c (Proc.devRef .tc b) = W3 m ρ c (Proc.devRef .tc b) :=
  exit_keep spec1 launch1.win.arr_inj c _ _ b fun w e =>
    ((dat1 (VV3 m ρ) c).arrAt_in w (by subst e; revert hb; revert w; decide) _).trans (A_eq1 (VV3 m ρ) c w)

abbrev W5 : Dev nD → Valuation τ sig (Elt F) := fun c => StableHlo.after hostOps2 (W4 m ρ c)
abbrev VV5 : (c : Dev nD) → (b : Ref sig .tc) → Buf (Elt F) ((c : Thread nD τ).loc b) := fun c b => W5 m ρ c b

theorem W5_keep (c : Dev nD) (b : Ref sig .tc) (hb : b ∉ hostOps2_W) :
    W5 m ρ c (Proc.devRef .tc b) = W4 m ρ c (Proc.devRef .tc b) :=
  StableHlo.after_of_writes_sub hostOps2 _ hostOps_writes.2.2.1 hb

def W6 (c : Dev nD) : Valuation τ sig (Elt F) :=
  Pipeline.withArrays spec2 c (W5 m ρ c) fun w => (dat2 (VV5 m ρ) c).arrAt w cfg2.N
abbrev VV6 : (c : Dev nD) → (b : Ref sig .tc) → Buf (Elt F) ((c : Thread nD τ).loc b) := fun c b => W6 m ρ c b
theorem W6_arr (c : Dev nD) (w : Fin cfg2.W) :
    W6 m ρ c (Proc.devRef .tc (Pipeline.arrRef spec2 w)) = (dat2 (VV5 m ρ) c).arrAt w cfg2.N :=
  Pipeline.withArrays_arr spec2 launch2.win.arr_inj c _ _ w
theorem W6_keep (c : Dev nD) (b : Ref sig .tc) (hb : b ≠ main_v36) :
    W6 m ρ c (Proc.devRef .tc b) = W5 m ρ c (Proc.devRef .tc b) :=
  exit_keep spec2 launch2.win.arr_inj c _ _ b fun w e =>
    ((dat2 (VV5 m ρ) c).arrAt_in w (by subst e; revert hb; revert w; decide) _).trans (A_eq2 (VV5 m ρ) c w)

abbrev W7 : Dev nD → Valuation τ sig (Elt F) := fun c => StableHlo.after hostOps3 (W6 m ρ c)
abbrev VV7 : (c : Dev nD) → (b : Ref sig .tc) → Buf (Elt F) ((c : Thread nD τ).loc b) := fun c b => W7 m ρ c b

theorem W7_keep (c : Dev nD) (b : Ref sig .tc) (hb : b ∉ hostOps3_W) :
    W7 m ρ c (Proc.devRef .tc b) = W6 m ρ c (Proc.devRef .tc b) :=
  StableHlo.after_of_writes_sub hostOps3 _ hostOps_writes.2.2.2 hb

def W8 (c : Dev nD) : Valuation τ sig (Elt F) :=
  Pipeline.withArrays spec3 c (W7 m ρ c) fun w => (dat3 (VV7 m ρ) c).arrAt w cfg3.N
abbrev VV8 : (c : Dev nD) → (b : Ref sig .tc) → Buf (Elt F) ((c : Thread nD τ).loc b) := fun c b => W8 m ρ c b
theorem W8_arr (c : Dev nD) (w : Fin cfg3.W) :
    W8 m ρ c (Proc.devRef .tc (Pipeline.arrRef spec3 w)) = (dat3 (VV7 m ρ) c).arrAt w cfg3.N :=
  Pipeline.withArrays_arr spec3 launch3.win.arr_inj c _ _ w
theorem W8_keep (c : Dev nD) (b : Ref sig .tc) (hb : b ≠ main_v52) :
    W8 m ρ c (Proc.devRef .tc b) = W7 m ρ c (Proc.devRef .tc b) :=
  exit_keep spec3 launch3.win.arr_inj c _ _ b fun w e =>
    ((dat3 (VV7 m ρ) c).arrAt_in w (by subst e; revert hb; revert w; decide) _).trans (A_eq3 (VV7 m ρ) c w)

theorem W8_keep_all (c : Dev nD) (b : Ref sig .tc) (h0 : b ∉ hostOps0_W) (h1 : b ∉ hostOps1_W) (h2 : b ∉ hostOps2_W)
    (h3 : b ∉ hostOps3_W) (o0 : b ≠ main_v8) (o1 : b ≠ main_v22) (o2 : b ≠ main_v36) (o3 : b ≠ main_v52) :
    W8 m ρ c (Proc.devRef .tc b) = m ((c : Thread nD τ).loc b) :=
  (W8_keep m ρ c b o3).trans <| (W7_keep m ρ c b h3).trans <| (W6_keep m ρ c b o2).trans <| (W5_keep m ρ c b h2).trans <|
    (W4_keep m ρ c b o1).trans <| (W3_keep m ρ c b h1).trans <| (W2_keep m ρ c b o0).trans <| (W1_keep m ρ c b h0).trans rfl

abbrev admH : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) admH p) c
  | ⟨0, _⟩ => fun c => dat0 (VV1 m ρ) c
  | ⟨1, _⟩ => fun c => dat1 (VV3 m ρ) c
  | ⟨2, _⟩ => fun c => dat2 (VV5 m ρ) c
  | ⟨3, _⟩ => fun c => dat3 (VV7 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W8 m ρ c) ∗ ∃ r, prngReg c r)

theorem ΦA_in {gr W : ℕ} (spec : Fin W → Pipeline.WinSpec sig gr) (c : Dev nD) :
    iprop((∃ r, prngReg c r) ∗ Pipeline.scopedRest (Ix := Unit) (Name := ℕ) (U := UR sig nD τ) (Lvl := ℕ) (Val := Elt F) spec c) ⊢ (Pipeline.ΦA (U := UR sig nD τ) (Val := Elt F) spec c : sProp 𝕄) := by
  unfold Pipeline.ΦA; iintro ⟨Hr, Hp⟩; iframe
theorem ΦA_out {gr W : ℕ} (spec : Fin W → Pipeline.WinSpec sig gr) (c : Dev nD) :
    (Pipeline.ΦA (U := UR sig nD τ) (Val := Elt F) spec c : sProp 𝕄) ⊢ iprop((∃ r, prngReg c r) ∗ Pipeline.scopedRest (Ix := Unit) (Name := ℕ) (U := UR sig nD τ) (Lvl := ℕ) (Val := Elt F) spec c) := by
  unfold Pipeline.ΦA; iintro ⟨Hp, Hr⟩; iframe

set_option backward.isDefEq.respectTransparency.types false in
/-- One kernel region as a segment of the run, taking every buffer from the contents `Wp` to the contents `Wq`: the
    four regions differ only in these parameters. -/
def regSeg (p : Fin 4) (lf : Pipeline.LaunchFacts (nD := nD) (τ := τ) cfgs p) (Wp Wq : Dev nD → Valuation τ sig (Elt F))
    (hbody : ∀ c, BodyObligation (pdats m ρ p c) (defs₀ (F := F)) 𝒱₀ () Set.univ)
    (hq : ∀ c w, (pdats m ρ p c).q w = fullShare) (howed : ∀ c t, (pdats m ρ p c).owed t = 0)
    (hrec : ∀ c x, x ∈ (pdats m ρ p c).recorded 0)
    (hA : ∀ c w, (pdats m ρ p c).A w = Wp c (Pipeline.arrRef (cfgs p).spec w))
    (hF : ∀ c w, (pdats m ρ p c).arrAt w (cfgs p).N = Wq c (Pipeline.arrRef (cfgs p).spec w))
    (hrest : ∀ c (b : Ref sig .tc), b ∉ Finset.univ.image (Pipeline.arrRef (cfgs p).spec) → Wq c b = Wp c b)
    (hin : ∀ c, iprop((∃ r, prngReg c r) ∗ Pipeline.scopedRest (Ix := Unit) (Name := ℕ) (U := UR sig nD τ) (Lvl := ℕ) (Val := Elt F) (cfgs p).spec c) ⊢ (pdats m ρ p c).Φ 0)
    (hout : ∀ c, (pdats m ρ p c).Φ (Fin.last _) ⊢ iprop((∃ r, prngReg c r) ∗ Pipeline.scopedRest (Ix := Unit) (Name := ℕ) (U := UR sig nD τ) (Lvl := ℕ) (Val := Elt F) (cfgs p).spec c)) :
    Pipeline.RegionSeg (pcfgs (F := F)) admH (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wp c) ∗ R c)
  post c := iprop(StableHlo.held (c : Thread nD τ) (Pipeline.ucRefs τ sig) (Wq c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wp c b)
  hentry c := by
    rw [Pipeline.ownSems0_none]
    have hsplit := Pipeline.arrays_of_unscopedBufs (p := p) (pcfgs (F := F)) admH (pdats m ρ) lf.win lf.arr_whole c ((pdats m ρ p c).share_full (hq c)) (fun b => Wp c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun x _ => Or.inl (hrec c x)
      iexact HO
    isplitl [Hp]; · iexact Hp
    iexact Hrest
  hin c := by
    iintro ⟨Hp, -, Hr⟩
    iapply (hin c)
    isplitl [Hp]; · iexact Hp
    iexact Hr
  hout c := by
    rw [Pipeline.ownSems0_none]
    iintro H
    ihave H' := (hout c) $$ H
    icases H' with ⟨Hp, Hr⟩
    isplitl [Hp]; · iexact Hp
    isplitr; · iempintro
    iexact Hr
  hexit c := by
    have hjoin := Pipeline.unscopedBufs_of_arrays (p := p) (pcfgs (F := F)) admH (Ix := Unit) (Name := ℕ) (U := UR sig nD τ) (Lvl := ℕ)
      lf.win lf.arr_whole c (pdats m ρ) ((pdats m ρ p c).share_full (hq c)) (fun b => Wp c b) (fun b => Wq c b) ((pdats m ρ p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

def reg0 := regSeg m ρ 0 launch0 (W1 m ρ) (W2 m ρ) (body_obligation0 (VV1 m ρ)) (fun _ _ => rfl) (fun _ _ => rfl) (fun _ _ => trivial) (fun _ _ => rfl)
  (fun c w => (W2_arr m ρ c w).symm) (fun c => exit_rest spec0 c _ _) (ΦA_in spec0) (ΦA_out spec0)
def reg1 := regSeg m ρ 1 launch1 (W3 m ρ) (W4 m ρ) (body_obligation1 (VV3 m ρ)) (fun _ _ => rfl) (fun _ _ => rfl) (fun _ _ => trivial) (fun _ _ => rfl)
  (fun c w => (W4_arr m ρ c w).symm) (fun c => exit_rest spec1 c _ _) (ΦA_in spec1) (ΦA_out spec1)
def reg2 := regSeg m ρ 2 launch2 (W5 m ρ) (W6 m ρ) (body_obligation2 (VV5 m ρ)) (fun _ _ => rfl) (fun _ _ => rfl) (fun _ _ => trivial) (fun _ _ => rfl)
  (fun c w => (W6_arr m ρ c w).symm) (fun c => exit_rest spec2 c _ _) (ΦA_in spec2) (ΦA_out spec2)
def reg3 := regSeg m ρ 3 launch3 (W7 m ρ) (W8 m ρ) (body_obligation3 (VV7 m ρ)) (fun _ _ => rfl) (fun _ _ => rfl) (fun _ _ => trivial) (fun _ _ => rfl)
  (fun c w => (W8_arr m ρ c w).symm) (fun c => exit_rest spec3 c _ _) (Phi3_in (VV7 m ρ)) (Phi3_out (VV7 m ρ))

abbrev segsH : List (Pipeline.Seg (pcfgs (F := F)) admH (pdats m ρ) () defs₀ 𝒱₀ L lv) :=
  [ .host (hseg hostOps0 hostOps0_sub hostOps_fresh.1 (W0 m ρ)),
    .region (reg0 m ρ),
    .host (hseg hostOps1 hostOps1_sub hostOps_fresh.2.1 (W2 m ρ)),
    .region (reg1 m ρ),
    .host (hseg hostOps2 hostOps2_sub hostOps_fresh.2.2.1 (W4 m ρ)),
    .region (reg2 m ρ),
    .host (hseg hostOps3 hostOps3_sub hostOps_fresh.2.2.2 (W6 m ρ)),
    .region (reg3 m ρ) ]

theorem main_run (c : Dev nD) : main (F := F) c = Pipeline.Seg.run (segsH m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) admH (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

abbrev argRefs : List (Ref sig .tc) := [main_arg0, main_arg1, main_arg2, main_arg3, main_arg4, main_arg5, main_arg6, main_arg7, main_arg8, main_arg9, main_arg10, main_arg11]

/-- No host stretch writes an argument and no region has one as its output, so the arguments end as launched. -/
theorem arg_kept (c : Dev nD) (b : Ref sig .tc) (hb : b ∈ argRefs) :
    Proc.devRef .tc b ∈ Pipeline.ucRefs τ sig ∧ W8 m ρ c (Proc.devRef .tc b) = m ((c : Thread nD τ).loc b) := by
  obtain ⟨hu, h0, h1, h2, h3, o0, o1, o2, o3⟩ := (by decide : ∀ b ∈ argRefs, ¬ (Proc.devRef .tc b : DevRef τ sig).isScoped ∧ b ∉ hostOps0_W
    ∧ b ∉ hostOps1_W ∧ b ∉ hostOps2_W ∧ b ∉ hostOps3_W ∧ b ≠ main_v8 ∧ b ≠ main_v22 ∧ b ≠ main_v36 ∧ b ≠ main_v52) b hb
  exact ⟨mem_uc b hu, W8_keep_all m ρ c b h0 h1 h2 h3 o0 o1 o2 o3⟩

theorem run_result : θ_run defs (onTc (τ := τ) (main (F := F))) ⟨m, fun _ => 0, ρ⟩ (fun r => ∀ c : Dev nD,
      r.2.mem ((c.tc : Thread nD τ).loc main_v52) = (dat3 (VV7 m ρ) c).arrAt 7 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    have k : ∀ b ∈ argRefs, r.2.mem ((c.tc : Thread nD τ).loc b) = m ((c.tc : Thread nD τ).loc b) := fun b hb =>
      (h c _ (arg_kept m ρ c b hb).1).trans (arg_kept m ρ c b hb).2
    ⟨(h c _ (mem_uc main_v52 (by decide))).trans (W8_arr m ρ c 7), k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide)⟩)
    (run_all m ρ)

end Cert.Kernel.Hand

end
-- ==== Proof.Spec.lean ====
import Idealize.ShloMosaic.PureOps.Ideal
import Mathlib.Data.EReal.Basic

noncomputable section

namespace Cert.Gcn

open Idealize.ShloMosaic

abbrev NN : ℕ := 100000
abbrev NE : ℕ := 1600000
abbrev NG : ℕ := 1000

def hit (dst : Fin NE → BitVec 32) (e : Fin NE) (d : Fin NN) : Prop := (dst e).toInt = (d.val : ℤ)
instance (dst : Fin NE → BitVec 32) (e : Fin NE) (d : Fin NN) : Decidable (hit dst e d) := by unfold hit; infer_instance

def inGraph (batch : Fin NN → BitVec 32) (i : Fin NN) (g : Fin NG) : Prop := (batch i).toInt = (g.val : ℤ)
instance (batch : Fin NN → BitVec 32) (i : Fin NN) (g : Fin NG) : Decidable (inGraph batch i g) := by unfold inGraph; infer_instance

def nrm (x : BitVec 32) : BitVec 32 := if x.slt 0#32 then x + 100000#32 else x
def row (x : BitVec 32) : Fin NN := ⟨min (nrm x).toInt.toNat (NN - 1), by unfold NN; omega⟩

section
variable (src dst : Fin NE → BitVec 32) (batch : Fin NN → BitVec 32)

def deg (d : Fin NN) : EReal := (∑ e : Fin NE, if hit dst e d then (1 : EReal) else 0) + 1

def dinv (d : Fin NN) : EReal := Ideal.rsqrt (deg dst d)

def proj {K : ℕ} (z : Fin NN → Fin K → EReal) (W : Fin K → Fin 128 → EReal) (p : Fin NN) (q : Fin 128) : EReal :=
  ∑ k : Fin K, z p k * W k q

def hsK {K : ℕ} (z : Fin NN → Fin K → EReal) (W : Fin K → Fin 128 → EReal) (p : Fin NN) (q : Fin 128) : EReal :=
  proj z W p q * dinv dst p

def aggK (T : Fin NN → Fin 128 → EReal) (d : Fin NN) (j : Fin 128) : EReal :=
  ∑ e : Fin NE, if hit dst e d then T (row (src e)) j else 0

def preK (hs : Fin NN → Fin 128 → EReal) (b : Fin 128 → EReal) (d : Fin NN) (j : Fin 128) : EReal :=
  dinv dst d * (aggK src dst hs d j + hs d j) + b j

def aggR (h : Fin NN → Fin 128 → EReal) (d : Fin NN) (j : Fin 128) : EReal :=
  ∑ e : Fin NE, if hit dst e d then h (row (src e)) j * (dinv dst (row (src e)) * dinv dst (row (dst e))) else 0
def preR (h : Fin NN → Fin 128 → EReal) (b : Fin 128 → EReal) (d : Fin NN) (j : Fin 128) : EReal :=
  (aggR src dst h d j + h d j * (dinv dst d * dinv dst d)) + b j

def relu (f : Fin NN → Fin 128 → EReal) (p : Fin NN) (q : Fin 128) : EReal := max (f p q) 0

def poolSum (h : Fin NN → Fin 128 → EReal) (g : Fin NG) (k : Fin 128) : EReal :=
  ∑ i : Fin NN, if inGraph batch i g then h i k else 0
def poolCnt (g : Fin NG) : EReal := ∑ i : Fin NN, if inGraph batch i g then (1 : EReal) else 0
def readout (h : Fin NN → Fin 128 → EReal) (Wl : Fin 128 → Fin 1 → EReal) (bl : Fin 1 → EReal) (g : Fin NG) (o : Fin 1) : EReal :=
  (∑ k : Fin 128, Ideal.div (poolSum batch h g k) (max (poolCnt batch g) 1) * Wl k o) + bl o

variable (x : Fin NN → Fin 64 → EReal) (W1 : Fin 64 → Fin 128 → EReal) (b1 : Fin 128 → EReal)
  (W2 : Fin 128 → Fin 128 → EReal) (b2 : Fin 128 → EReal) (W3 : Fin 128 → Fin 128 → EReal) (b3 : Fin 128 → EReal)
  (Wl : Fin 128 → Fin 1 → EReal) (bl : Fin 1 → EReal)

def hs1K := hsK dst x W1
def z1K := relu (preK src dst (hs1K dst x W1) b1)
def hs2K := hsK dst (z1K src dst x W1 b1) W2
def z2K := relu (preK src dst (hs2K src dst x W1 b1 W2) b2)
def hs3K := hsK dst (z2K src dst x W1 b1 W2 b2) W3
def h3K := preK src dst (hs3K src dst x W1 b1 W2 b2 W3) b3

def outK := readout batch (h3K src dst x W1 b1 W2 b2 W3 b3) Wl bl

def z1R := relu (preR src dst (proj x W1) b1)
def z2R := relu (preR src dst (proj (z1R src dst x W1 b1) W2) b2)
def h3R := preR src dst (proj (z2R src dst x W1 b1 W2 b2) W3) b3

def outR := readout batch (h3R src dst x W1 b1 W2 b2 W3 b3) Wl bl

end

end Cert.Gcn

end
-- ==== Proof.Val0.lean ====
import proofs.«428218_j42571715838145_2_alg».proof.Proof.Reg0
import proofs.«428218_j42571715838145_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

theorem lhs_mm0_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs_mm0_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhs_mm0_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhs_mm0_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

theorem matmul0_apply {φ₁ φ₂ : FTy} (a : FVec Ideal S5000x64 φ₁) (b : FVec Ideal S64x128 φ₂) (p : Fin 5000) (q : Fin 128) :
    FloatOps.matmul dot_S5000x64_S64x128_S5000x128_1_0_0_1_n_n none a b (constant S5000x128 .f32 0x00000000#32) (ix2 p q)
      = ∑ k : Fin 64, a (ix2 p k) * b (ix2 k q) := by
  rw [Ideal.matmul_constant_zero_apply, ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx (ix2 p q) ((ValueIdx.contrEquiv1 dot_S5000x64_S64x128_S5000x128_1_0_0_1_n_n 64 rfl rfl).symm k) = ix2 p k := funext fun ax => Fin.ext (by
    match ax with
    | ⟨0, _⟩ => exact lhs_mm0_0 _ _
    | ⟨1, _⟩ => exact (lhs_mm0_1 _ _).trans hk)
  have er : dot_S5000x64_S64x128_S5000x128_1_0_0_1_n_n.rhsIdx (ix2 p q) ((ValueIdx.contrEquiv1 dot_S5000x64_S64x128_S5000x128_1_0_0_1_n_n 64 rfl rfl).symm k) = ix2 k q := funext fun ax => Fin.ext (by
    match ax with
    | ⟨0, _⟩ => exact (rhs_mm0_0 _ _).trans hk
    | ⟨1, _⟩ => exact rhs_mm0_1 _ _)
  rw [el, er]

theorem bcast_col_apply {α : Type} (x : S5000x1.Idx → α) (h : S5000x1.Broadcasts S5000x128) (p : Fin 5000) (q : Fin 128) :
    broadcastTo S5000x128 x h (ix2 p q) = x (ix2 p (0 : Fin 1)) :=
  broadcastTo_apply x h _ _ (fun ax => by
    match ax with
    | ⟨0, _⟩ => rfl
    | ⟨1, _⟩ => rfl)

theorem pay0_apply (x0 : Vec Ideal S5000x64 .f32) (x1 : Vec Ideal S64x128 .f32) (x2 : Vec Ideal S5000x1 .f32) (p : Fin 5000) (q : Fin 128) :
    k0_pay1 x0 x1 x2 (ix2 p q) = (∑ k : Fin 64, x0 (ix2 p k) * x1 (ix2 k q)) * x2 (ix2 p (0 : Fin 1)) := by
  unfold k0_pay1
  show mulf (F := Ideal) (FloatOps.matmul dot_S5000x64_S64x128_S5000x128_1_0_0_1_n_n none (truncf (F := Ideal) .bf16 x0 bitsLt_bf16_f32) (truncf (F := Ideal) .bf16 x1 bitsLt_bf16_f32) (constant (F := Ideal) S5000x128 .f32 0x00000000#32))
      (broadcastTo S5000x128 (shapeCast S5000x1 x2 shapeCasts_S5000x1_S5000x1) broadcasts_S5000x1_S5000x128) (ix2 p q) = _
  rw [mulf_apply, matmul0_apply, bcast_col_apply, shapeCast_self]
  rfl

variable (V : (c : Dev nD) → (b : Ref sig .tc) → Buf (Elt Ideal) ((c : Thread nD τ).loc b))

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem iblk0_0_apply (c : Dev nD) (t : Fin cfg0.N) (a : Fin 5000) (k : Fin 64) (r : Fin 100000) (hr : r.val = t.val * 5000 + a.val) :
    (iblk0 V c 0 t : Vec Ideal S5000x64 .f32) (ix2 a k) = V c main_arg0 (ix2 r k) := by
  obtain ⟨e0, e1, -⟩ := idx_facts0 t
  unfold iblk0
  rw [View.read_apply]
  show V c main_arg0 _ = V c main_arg0 _
  refine congrArg (V c main_arg0) (funext fun ax => Fin.ext ?_)
  match ax with
  | ⟨0, _⟩ => show win0_0.index t (0 : Fin 2) * 5000 + 1 * a.val = r.val; rw [e0, hr]; omega
  | ⟨1, _⟩ => show win0_0.index t (1 : Fin 2) * 64 + 1 * k.val = k.val; rw [e1]; omega

theorem iblk0_1_apply (c : Dev nD) (t : Fin cfg0.N) (k : Fin 64) (q : Fin 128) :
    (iblk0 V c 1 t : Vec Ideal S64x128 .f32) (ix2 k q) = V c main_arg4 (ix2 k q) := by
  obtain ⟨-, -, e2, e3, -⟩ := idx_facts0 t
  unfold iblk0
  rw [View.read_apply]
  show V c main_arg4 _ = V c main_arg4 _
  refine congrArg (V c main_arg4) (funext fun ax => Fin.ext ?_)
  match ax with
  | ⟨0, _⟩ => show win0_1.index t (0 : Fin 2) * 64 + 1 * k.val = k.val; rw [e2]; omega
  | ⟨1, _⟩ => show win0_1.index t (1 : Fin 2) * 128 + 1 * q.val = q.val; rw [e3]; omega

theorem iblk0_2_apply (c : Dev nD) (t : Fin cfg0.N) (a : Fin 5000) (r : Fin 100000) (hr : r.val = t.val * 5000 + a.val) :
    (iblk0 V c 2 t : Vec Ideal S5000x1 .f32) (ix2 a (0 : Fin 1)) = V c main_v7 (ix2 r (0 : Fin 1)) := by
  obtain ⟨-, -, -, -, e4, e5, -⟩ := idx_facts0 t
  unfold iblk0
  rw [View.read_apply]
  show V c main_v7 _ = V c main_v7 _
  refine congrArg (V c main_v7) (funext fun ax => Fin.ext ?_)
  match ax with
  | ⟨0, _⟩ => show win0_2.index t (0 : Fin 2) * 5000 + 1 * a.val = r.val; rw [e4, hr]; omega
  | ⟨1, _⟩ => show win0_2.index t (1 : Fin 2) * 1 + 1 * (0 : Fin 1).val = (0 : Fin 1).val; rw [e5]; rfl

def G0 (xf : Fin 100000 → Fin 64 → EReal) (wf : Fin 64 → Fin 128 → EReal) (df : Fin 100000 → EReal) : S100000x128.Idx → EReal :=
  fun i => Cert.Gcn.proj xf wf (i 0) (i 1) * df (i 0)

theorem flushed0_eq (c : Dev nD) (xf : Fin 100000 → Fin 64 → EReal) (wf : Fin 64 → Fin 128 → EReal) (df : Fin 100000 → EReal)
    (hx : ∀ p k, V c main_arg0 (ix2 p k) = xf p k) (hw : ∀ k q, V c main_arg4 (ix2 k q) = wf k q)
    (hd : ∀ p, V c main_v7 (ix2 p (0 : Fin 1)) = df p) (t : Fin cfg0.N) :
    (dat0 (F := Ideal) V c).flushed 3 t = ((cfg0.win 3).blk t).view.read (Elt Ideal) (G0 xf wf df) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x128) hz, View.ld_unit_zero (S := S5000x1) hz]
  funext j
  obtain ⟨a, b, rfl⟩ : ∃ (a : Fin 5000) (b : Fin 128), j = ix2 a b := ⟨j 0, j 1, eq_ix2 j⟩
  have hN : cfg0.N = 20 := N_0
  have ht : t.val < 20 := hN ▸ t.isLt
  let r : Fin 100000 := ⟨t.val * 5000 + a.val, by have := a.isLt; omega⟩
  have hr : r.val = t.val * 5000 + a.val := rfl
  obtain ⟨-, -, -, -, -, -, e6, e7⟩ := idx_facts0 t
  have hemb : ((cfg0.win 3).blk t).view.emb (ix2 a b) = ix2 r b := funext fun ax => Fin.ext (by
    match ax with
    | ⟨0, _⟩ => show win0_3.index t (0 : Fin 2) * 5000 + 1 * a.val = r.val; rw [e6, hr]; omega
    | ⟨1, _⟩ => show win0_3.index t (1 : Fin 2) * 128 + 1 * b.val = b.val; rw [e7]; omega)
  show k0_pay1 (iblk0 V c 0 t) (iblk0 V c 1 t) (iblk0 V c 2 t) (ix2 a b) = G0 xf wf df (((cfg0.win 3).blk t).view.emb (ix2 a b))
  rw [pay0_apply, hemb, iblk0_2_apply V c t a r hr, hd]
  show _ = (∑ k : Fin 64, xf r k * wf k b) * df r
  congr 1
  exact Finset.sum_congr rfl fun k _ => by rw [iblk0_0_apply V c t a k r hr, iblk0_1_apply V c t k b, hx, hw]

theorem mem_blk0_3 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v8).slice (win0_3.rect t)).set ↔ _
  rw [View.set_slice_whole, Rect.mem_set_unit]
  exact Iff.rfl

theorem cover0_arr (i : S100000x128.Idx) : ∃ t : Fin cfg0.N, (cfg0.win 3).flush t = true ∧ i ∈ ((cfg0.win 3).blk t).view.set := by
  have hN : cfg0.N = 20 := N_0
  have hi0 : (i 0).val < 100000 := idx2_lt0 i
  have hi1 : (i 1).val < 128 := idx2_lt1 i
  have htl : (i 0).val / 5000 < cfg0.N := by rw [hN]; omega
  obtain ⟨-, -, -, -, -, -, e6, e7⟩ := idx_facts0 ⟨(i 0).val / 5000, htl⟩
  refine ⟨⟨(i 0).val / 5000, htl⟩, flush0_3 _, ?_⟩
  rw [mem_blk0_3]
  intro ax
  match ax with
  | ⟨0, _⟩ =>
    show win0_3.index ⟨(i 0).val / 5000, htl⟩ (0 : Fin 2) * 5000 ≤ (i 0).val ∧ (i 0).val < win0_3.index ⟨(i 0).val / 5000, htl⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, htl⟩ (1 : Fin 2) * 128 ≤ (i 1).val ∧ (i 1).val < win0_3.index ⟨(i 0).val / 5000, htl⟩ (1 : Fin 2) * 128 + 128
    rw [e7]; omega

theorem final0 (c : Dev nD) (xf : Fin 100000 → Fin 64 → EReal) (wf : Fin 64 → Fin 128 → EReal) (df : Fin 100000 → EReal)
    (hx : ∀ p k, V c main_arg0 (ix2 p k) = xf p k) (hw : ∀ k q, V c main_arg4 (ix2 k q) = wf k q)
    (hd : ∀ p, V c main_v7 (ix2 p (0 : Fin 1)) = df p) :
    ∀ (p : Fin 100000) (q : Fin 128), (dat0 (F := Ideal) V c).arrAt 3 cfg0.N (ix2 p q) = Cert.Gcn.proj xf wf p q * df p := by
  intro p q
  rw [(dat0 (F := Ideal) V c).arrAt_eq_of_cover 3 (G0 xf wf df) (fun t _ => flushed0_eq V c xf wf df hx hw hd t) cover0_arr]
  rfl

end Cert.KernelIdeal.HandValue

end
-- ==== Proof.Val1.lean ====
import proofs.«428218_j42571715838145_2_alg».proof.Proof.Reg1
import proofs.«428218_j42571715838145_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero_offs1 : (![0, 0] : Fin 2 → Nat) = fun _ => 0 := funext fun a => by fin_cases a <;> rfl

theorem lhs_mm1_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_mm1_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_mm1_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_mm1_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem mm1_apply (a : FVec Ideal S5000x128 .bf16) (b : FVec Ideal S128x128 .bf16) (r : Fin 5000) (q : Fin 128) :
    matmul dot_S5000x128_S128x128_S5000x128_1_0_0_1_n_n none a b (constant (F := Ideal) S5000x128 .f32 0x00000000#32) (ix2 r q)
      = ∑ k : Fin 128, a (ix2 r k) * b (ix2 k q) := by
  show FloatOps.matmul dot_S5000x128_S128x128_S5000x128_1_0_0_1_n_n none a b (constant (F := Ideal) S5000x128 .f32 0x00000000#32) (ix2 r q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact lhs_mm1_0 _ _
    | ⟨1, _⟩ => exact (lhs_mm1_1 _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (rhs_mm1_0 _ _).trans hk
    | ⟨1, _⟩ => exact rhs_mm1_1 _ _)
  rw [el, er]

theorem spread_col1_apply {α : Type} (x : S5000x1.Idx → α) (r : Fin 5000) (q : Fin 128) :
    broadcastTo S5000x128 x broadcasts_S5000x1_S5000x128 (ix2 r q) = x (ix2 r (0 : Fin 1)) :=
  broadcastTo_apply x _ (ix2 r q) (ix2 r (0 : Fin 1)) (fun a => by
    match a with
    | ⟨0, _⟩ => rfl
    | ⟨1, _⟩ => rfl)

theorem spread_row1_apply {α : Type} (x : S1x128.Idx → α) (r : Fin 5000) (q : Fin 128) :
    broadcastTo S5000x128 x broadcasts_S1x128_S5000x128 (ix2 r q) = x (ix2 (0 : Fin 1) q) :=
  broadcastTo_apply x _ (ix2 r q) (ix2 (0 : Fin 1) q) (fun a => by
    match a with
    | ⟨0, _⟩ => rfl
    | ⟨1, _⟩ => rfl)

theorem k1_pay1_apply (x0 : Vec Ideal S5000x1 .f32) (x2 : Vec Ideal S5000x128 .f32) (x4 : Vec Ideal S5000x128 .bf16)
    (x10 : Vec Ideal S1x128 .f32) (x17 : Vec Ideal S128x128 .f32) (r : Fin 5000) (q : Fin 128) :
    k1_pay1 x0 x2 x4 x10 x17 (ix2 r q)
      = (∑ k : Fin 128, max (x0 (ix2 r (0 : Fin 1)) * (x2 (ix2 r k) + x4 (ix2 r k)) + x10 (ix2 (0 : Fin 1) k)) 0 * x17 (ix2 k q))
          * x0 (ix2 r (0 : Fin 1)) := by
  unfold k1_pay1
  simp only [shapeCast_self]
  rw [truncf_apply, mulf_apply, mm1_apply, spread_col1_apply]
  congr 1
  refine Finset.sum_congr rfl fun k _ => ?_
  rw [truncf_apply, truncf_apply, maximumf_apply, addf_apply, mulf_apply, addf_apply, extf_apply, spread_col1_apply, spread_row1_apply, broadcast_apply]
  show max _ (Ideal.ofBits .f32 0x00000000#32) * _ = _
  rw [Ideal.ofBits_zero_f32]

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem iblk1_0_apply (c : Dev nD) (t : Fin cfg1.N) (a : Fin 5000) (k : Fin 128) (r : Fin 100000) (hr : r.val = t.val * 5000 + a.val) :
    (iblk1 V c 0 t : Vec Ideal S5000x128 .f32) (ix2 a k) = V c main_v19 (ix2 r k) := by
  obtain ⟨e0, e1, -⟩ := idx_facts1 t
  unfold iblk1
  rw [View.read_apply]
  show V c main_v19 _ = V c main_v19 _
  refine congrArg (V c main_v19) (funext fun ax => Fin.ext ?_)
  match ax with
  | ⟨0, _⟩ => show win1_0.index t (0 : Fin 2) * 5000 + 1 * a.val = r.val; rw [e0, hr]; omega
  | ⟨1, _⟩ => show win1_0.index t (1 : Fin 2) * 128 + 1 * k.val = k.val; rw [e1]; omega

theorem iblk1_1_apply (c : Dev nD) (t : Fin cfg1.N) (a : Fin 5000) (k : Fin 128) (r : Fin 100000) (hr : r.val = t.val * 5000 + a.val) :
    (iblk1 V c 1 t : Vec Ideal S5000x128 .bf16) (ix2 a k) = V c main_v8 (ix2 r k) := by
  obtain ⟨-, -, e2, e3, -⟩ := idx_facts1 t
  unfold iblk1
  rw [View.read_apply]
  show V c main_v8 _ = V c main_v8 _
  refine congrArg (V c main_v8) (funext fun ax => Fin.ext ?_)
  match ax with
  | ⟨0, _⟩ => show win1_1.index t (0 : Fin 2) * 5000 + 1 * a.val = r.val; rw [e2, hr]; omega
  | ⟨1, _⟩ => show win1_1.index t (1 : Fin 2) * 128 + 1 * k.val = k.val; rw [e3]; omega

theorem iblk1_2_apply (c : Dev nD) (t : Fin cfg1.N) (a : Fin 5000) (r : Fin 100000) (hr : r.val = t.val * 5000 + a.val) :
    (iblk1 V c 2 t : Vec Ideal S5000x1 .f32) (ix2 a (0 : Fin 1)) = V c main_v20 (ix2 r (0 : Fin 1)) := by
  obtain ⟨-, -, -, -, e4, e5, -⟩ := idx_facts1 t
  unfold iblk1
  rw [View.read_apply]
  show V c main_v20 _ = V c main_v20 _
  refine congrArg (V c main_v20) (funext fun ax => Fin.ext ?_)
  match ax with
  | ⟨0, _⟩ => show win1_2.index t (0 : Fin 2) * 5000 + 1 * a.val = r.val; rw [e4, hr]; omega
  | ⟨1, _⟩ => show win1_2.index t (1 : Fin 2) * 1 + 1 * (0 : Fin 1).val = (0 : Fin 1).val; rw [e5]; rfl

theorem iblk1_3_apply (c : Dev nD) (t : Fin cfg1.N) (k : Fin 128) :
    (iblk1 V c 3 t : Vec Ideal S1x128 .f32) (ix2 (0 : Fin 1) k) = V c main_v21 (ix2 (0 : Fin 1) k) := by
  obtain ⟨-, -, -, -, -, -, e6, e7, -⟩ := idx_facts1 t
  unfold iblk1
  rw [View.read_apply]
  show V c main_v21 _ = V c main_v21 _
  refine congrArg (V c main_v21) (funext fun ax => Fin.ext ?_)
  match ax with
  | ⟨0, _⟩ => show win1_3.index t (0 : Fin 2) * 1 + 1 * (0 : Fin 1).val = (0 : Fin 1).val; rw [e6]; rfl
  | ⟨1, _⟩ => show win1_3.index t (1 : Fin 2) * 128 + 1 * k.val = k.val; rw [e7]; omega

theorem iblk1_4_apply (c : Dev nD) (t : Fin cfg1.N) (k : Fin 128) (q : Fin 128) :
    (iblk1 V c 4 t : Vec Ideal S128x128 .f32) (ix2 k q) = V c main_arg6 (ix2 k q) := by
  obtain ⟨-, -, -, -, -, -, -, -, e8, e9, -⟩ := idx_facts1 t
  unfold iblk1
  rw [View.read_apply]
  show V c main_arg6 _ = V c main_arg6 _
  refine congrArg (V c main_arg6) (funext fun ax => Fin.ext ?_)
  match ax with
  | ⟨0, _⟩ => show win1_4.index t (0 : Fin 2) * 128 + 1 * k.val = k.val; rw [e8]; omega
  | ⟨1, _⟩ => show win1_4.index t (1 : Fin 2) * 128 + 1 * q.val = q.val; rw [e9]; omega

def G1 (aggf hsf : Fin 100000 → Fin 128 → EReal) (df : Fin 100000 → EReal) (bf : Fin 128 → EReal) (wf : Fin 128 → Fin 128 → EReal) : S100000x128.Idx → EReal :=
  fun i => Cert.Gcn.proj (fun p k => max (df p * (aggf p k + hsf p k) + bf k) 0) wf (i 0) (i 1) * df (i 0)

theorem flushed1_eq (c : Dev nD) (aggf hsf : Fin 100000 → Fin 128 → EReal) (df : Fin 100000 → EReal) (bf : Fin 128 → EReal) (wf : Fin 128 → Fin 128 → EReal)
    (ha : ∀ p k, V c main_v19 (ix2 p k) = aggf p k) (hh : ∀ p k, V c main_v8 (ix2 p k) = hsf p k)
    (hd : ∀ p, V c main_v20 (ix2 p (0 : Fin 1)) = df p) (hb : ∀ k, V c main_v21 (ix2 (0 : Fin 1) k) = bf k)
    (hw : ∀ k q, V c main_arg6 (ix2 k q) = wf k q) (t : Fin cfg1.N) :
    (dat1 (F := Ideal) V c).flushed 5 t = ((cfg1.win 5).blk t).view.read (Elt Ideal) (G1 aggf hsf df bf wf) := by
  show (cfg1.win 5).cut (grid1.coords t) ((dat1 V c).after 5 t) = _
  rw [after1_5]
  unfold out1_5
  rw [View.canon_unit_zero zero_offs1]
  simp only [View.ld_unit_zero (S := S5000x1) zero_offs1, View.ld_unit_zero (S := S5000x128) zero_offs1, View.ld_unit_zero (S := S1x128) zero_offs1, View.ld_unit_zero (S := S128x128) zero_offs1]
  funext j
  obtain ⟨a, b, rfl⟩ : ∃ (a : Fin 5000) (b : Fin 128), j = ix2 a b := ⟨j 0, j 1, eq_ix2 j⟩
  have hN : cfg1.N = 20 := N_1
  have ht : t.val < 20 := hN ▸ t.isLt
  let r : Fin 100000 := ⟨t.val * 5000 + a.val, by have := a.isLt; omega⟩
  have hr : r.val = t.val * 5000 + a.val := rfl
  obtain ⟨-, -, -, -, -, -, -, -, -, -, e10, e11⟩ := idx_facts1 t
  have hemb : ((cfg1.win 5).blk t).view.emb (ix2 a b) = ix2 r b := funext fun ax => Fin.ext (by
    match ax with
    | ⟨0, _⟩ => show win1_5.index t (0 : Fin 2) * 5000 + 1 * a.val = r.val; rw [e10, hr]; omega
    | ⟨1, _⟩ => show win1_5.index t (1 : Fin 2) * 128 + 1 * b.val = b.val; rw [e11]; omega)
  show k1_pay1 (iblk1 V c 2 t) (iblk1 V c 0 t) (iblk1 V c 1 t) (iblk1 V c 3 t) (iblk1 V c 4 t) (ix2 a b) = G1 aggf hsf df bf wf (((cfg1.win 5).blk t).view.emb (ix2 a b))
  rw [k1_pay1_apply, hemb, iblk1_2_apply V c t a r hr, hd]
  show _ = (∑ k : Fin 128, max (df r * (aggf r k + hsf r k) + bf k) 0 * wf k b) * df r
  congr 1
  exact Finset.sum_congr rfl fun k _ => by rw [iblk1_0_apply V c t a k r hr, iblk1_1_apply V c t a k r hr, iblk1_3_apply V c t k, iblk1_4_apply V c t k b, ha, hh, hb, hw]

theorem mem_blk1_5 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v22).slice (win1_5.rect t)).set ↔ _
  rw [View.set_slice_whole, Rect.mem_set_unit]
  exact Iff.rfl

theorem cover1_arr (i : S100000x128.Idx) : ∃ t : Fin cfg1.N, (cfg1.win 5).flush t = true ∧ i ∈ ((cfg1.win 5).blk t).view.set := by
  have hN : cfg1.N = 20 := N_1
  have hi0 : (i 0).val < 100000 := idx2_lt0 i
  have hi1 : (i 1).val < 128 := idx2_lt1 i
  have htl : (i 0).val / 5000 < cfg1.N := by rw [hN]; omega
  obtain ⟨-, -, -, -, -, -, -, -, -, -, e10, e11⟩ := idx_facts1 ⟨(i 0).val / 5000, htl⟩
  refine ⟨⟨(i 0).val / 5000, htl⟩, flush1_5 _, ?_⟩
  rw [mem_blk1_5]
  intro ax
  match ax with
  | ⟨0, _⟩ =>
    show win1_5.index ⟨(i 0).val / 5000, htl⟩ (0 : Fin 2) * 5000 ≤ (i 0).val ∧ (i 0).val < win1_5.index ⟨(i 0).val / 5000, htl⟩ (0 : Fin 2) * 5000 + 5000
    rw [e10]; show (i 0).val / 5000 * 5000 ≤ (i 0).val ∧ (i 0).val < (i 0).val / 5000 * 5000 + 5000; omega
  | ⟨1, _⟩ =>
    show win1_5.index ⟨(i 0).val / 5000, htl⟩ (1 : Fin 2) * 128 ≤ (i 1).val ∧ (i 1).val < win1_5.index ⟨(i 0).val / 5000, htl⟩ (1 : Fin 2) * 128 + 128
    rw [e11]; omega

theorem final1 (c : Dev nD) (aggf hsf : Fin 100000 → Fin 128 → EReal) (df : Fin 100000 → EReal) (bf : Fin 128 → EReal) (wf : Fin 128 → Fin 128 → EReal)
    (ha : ∀ p k, V c main_v19 (ix2 p k) = aggf p k) (hh : ∀ p k, V c main_v8 (ix2 p k) = hsf p k)
    (hd : ∀ p, V c main_v20 (ix2 p (0 : Fin 1)) = df p) (hb : ∀ k, V c main_v21 (ix2 (0 : Fin 1) k) = bf k)
    (hw : ∀ k q, V c main_arg6 (ix2 k q) = wf k q) :
    ∀ (p : Fin 100000) (q : Fin 128), (dat1 (F := Ideal) V c).arrAt 5 cfg1.N (ix2 p q)
      = Cert.Gcn.proj (fun p k => max (df p * (aggf p k + hsf p k) + bf k) 0) wf p q * df p := by
  intro p q
  rw [(dat1 (F := Ideal) V c).arrAt_eq_of_cover 5 (G1 aggf hsf df bf wf) (fun t _ => flushed1_eq V c aggf hsf df bf wf ha hh hd hb hw t) cover1_arr]
  rfl

end Cert.KernelIdeal.HandValue

end
-- ==== Proof.Val2.lean ====
import proofs.«428218_j42571715838145_2_alg».proof.Proof.Reg2
import proofs.«428218_j42571715838145_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero_offs2 : (![0, 0] : Fin 2 → Nat) = fun _ => 0 := funext fun a => by fin_cases a <;> rfl

theorem lhs_mm2_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_mm2_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_mm2_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_mm2_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem mm2_apply (a : FVec Ideal S5000x128 .bf16) (b : FVec Ideal S128x128 .bf16) (r : Fin 5000) (q : Fin 128) :
    matmul dot_S5000x128_S128x128_S5000x128_1_0_0_1_n_n none a b (constant (F := Ideal) S5000x128 .f32 0x00000000#32) (ix2 r q)
      = ∑ k : Fin 128, a (ix2 r k) * b (ix2 k q) := by
  show FloatOps.matmul dot_S5000x128_S128x128_S5000x128_1_0_0_1_n_n none a b (constant (F := Ideal) S5000x128 .f32 0x00000000#32) (ix2 r q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact lhs_mm2_0 _ _
    | ⟨1, _⟩ => exact (lhs_mm2_1 _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (rhs_mm2_0 _ _).trans hk
    | ⟨1, _⟩ => exact rhs_mm2_1 _ _)
  rw [el, er]

theorem spread_col2_apply {α : Type} (x : S5000x1.Idx → α) (r : Fin 5000) (q : Fin 128) :
    broadcastTo S5000x128 x broadcasts_S5000x1_S5000x128 (ix2 r q) = x (ix2 r (0 : Fin 1)) :=
  broadcastTo_apply x _ (ix2 r q) (ix2 r (0 : Fin 1)) (fun a => by
    match a with
    | ⟨0, _⟩ => rfl
    | ⟨1, _⟩ => rfl)

theorem spread_row2_apply {α : Type} (x : S1x128.Idx → α) (r : Fin 5000) (q : Fin 128) :
    broadcastTo S5000x128 x broadcasts_S1x128_S5000x128 (ix2 r q) = x (ix2 (0 : Fin 1) q) :=
  broadcastTo_apply x _ (ix2 r q) (ix2 (0 : Fin 1) q) (fun a => by
    match a with
    | ⟨0, _⟩ => rfl
    | ⟨1, _⟩ => rfl)

theorem k2_pay1_apply (x0 : Vec Ideal S5000x1 .f32) (x2 : Vec Ideal S5000x128 .f32) (x4 : Vec Ideal S5000x128 .bf16)
    (x10 : Vec Ideal S1x128 .f32) (x17 : Vec Ideal S128x128 .f32) (r : Fin 5000) (q : Fin 128) :
    k2_pay1 x0 x2 x4 x10 x17 (ix2 r q)
      = (∑ k : Fin 128, max (x0 (ix2 r (0 : Fin 1)) * (x2 (ix2 r k) + x4 (ix2 r k)) + x10 (ix2 (0 : Fin 1) k)) 0 * x17 (ix2 k q))
          * x0 (ix2 r (0 : Fin 1)) := by
  unfold k2_pay1
  simp only [shapeCast_self]
  rw [truncf_apply, mulf_apply, mm2_apply, spread_col2_apply]
  congr 1
  refine Finset.sum_congr rfl fun k _ => ?_
  rw [truncf_apply, truncf_apply, maximumf_apply, addf_apply, mulf_apply, addf_apply, extf_apply, spread_col2_apply, spread_row2_apply, broadcast_apply]
  show max _ (Ideal.ofBits .f32 0x00000000#32) * _ = _
  rw [Ideal.ofBits_zero_f32]

theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem iblk2_0_apply (c : Dev nD) (t : Fin cfg2.N) (a : Fin 5000) (k : Fin 128) (r : Fin 100000) (hr : r.val = t.val * 5000 + a.val) :
    (iblk2 V c 0 t : Vec Ideal S5000x128 .f32) (ix2 a k) = V c main_v33 (ix2 r k) := by
  obtain ⟨e0, e1, -⟩ := idx_facts2 t
  unfold iblk2
  rw [View.read_apply]
  show V c main_v33 _ = V c main_v33 _
  refine congrArg (V c main_v33) (funext fun ax => Fin.ext ?_)
  match ax with
  | ⟨0, _⟩ => show win2_0.index t (0 : Fin 2) * 5000 + 1 * a.val = r.val; rw [e0, hr]; omega
  | ⟨1, _⟩ => show win2_0.index t (1 : Fin 2) * 128 + 1 * k.val = k.val; rw [e1]; omega

theorem iblk2_1_apply (c : Dev nD) (t : Fin cfg2.N) (a : Fin 5000) (k : Fin 128) (r : Fin 100000) (hr : r.val = t.val * 5000 + a.val) :
    (iblk2 V c 1 t : Vec Ideal S5000x128 .bf16) (ix2 a k) = V c main_v22 (ix2 r k) := by
  obtain ⟨-, -, e2, e3, -⟩ := idx_facts2 t
  unfold iblk2
  rw [View.read_apply]
  show V c main_v22 _ = V c main_v22 _
  refine congrArg (V c main_v22) (funext fun ax => Fin.ext ?_)
  match ax with
  | ⟨0, _⟩ => show win2_1.index t (0 : Fin 2) * 5000 + 1 * a.val = r.val; rw [e2, hr]; omega
  | ⟨1, _⟩ => show win2_1.index t (1 : Fin 2) * 128 + 1 * k.val = k.val; rw [e3]; omega

theorem iblk2_2_apply (c : Dev nD) (t : Fin cfg2.N) (a : Fin 5000) (r : Fin 100000) (hr : r.val = t.val * 5000 + a.val) :
    (iblk2 V c 2 t : Vec Ideal S5000x1 .f32) (ix2 a (0 : Fin 1)) = V c main_v34 (ix2 r (0 : Fin 1)) := by
  obtain ⟨-, -, -, -, e4, e5, -⟩ := idx_facts2 t
  unfold iblk2
  rw [View.read_apply]
  show V c main_v34 _ = V c main_v34 _
  refine congrArg (V c main_v34) (funext fun ax => Fin.ext ?_)
  match ax with
  | ⟨0, _⟩ => show win2_2.index t (0 : Fin 2) * 5000 + 1 * a.val = r.val; rw [e4, hr]; omega
  | ⟨1, _⟩ => show win2_2.index t (1 : Fin 2) * 1 + 1 * (0 : Fin 1).val = (0 : Fin 1).val; rw [e5]; rfl

theorem iblk2_3_apply (c : Dev nD) (t : Fin cfg2.N) (k : Fin 128) :
    (iblk2 V c 3 t : Vec Ideal S1x128 .f32) (ix2 (0 : Fin 1) k) = V c main_v35 (ix2 (0 : Fin 1) k) := by
  obtain ⟨-, -, -, -, -, -, e6, e7, -⟩ := idx_facts2 t
  unfold iblk2
  rw [View.read_apply]
  show V c main_v35 _ = V c main_v35 _
  refine congrArg (V c main_v35) (funext fun ax => Fin.ext ?_)
  match ax with
  | ⟨0, _⟩ => show win2_3.index t (0 : Fin 2) * 1 + 1 * (0 : Fin 1).val = (0 : Fin 1).val; rw [e6]; rfl
  | ⟨1, _⟩ => show win2_3.index t (1 : Fin 2) * 128 + 1 * k.val = k.val; rw [e7]; omega

theorem iblk2_4_apply (c : Dev nD) (t : Fin cfg2.N) (k : Fin 128) (q : Fin 128) :
    (iblk2 V c 4 t : Vec Ideal S128x128 .f32) (ix2 k q) = V c main_arg8 (ix2 k q) := by
  obtain ⟨-, -, -, -, -, -, -, -, e8, e9, -⟩ := idx_facts2 t
  unfold iblk2
  rw [View.read_apply]
  show V c main_arg8 _ = V c main_arg8 _
  refine congrArg (V c main_arg8) (funext fun ax => Fin.ext ?_)
  match ax with
  | ⟨0, _⟩ => show win2_4.index t (0 : Fin 2) * 128 + 1 * k.val = k.val; rw [e8]; omega
  | ⟨1, _⟩ => show win2_4.index t (1 : Fin 2) * 128 + 1 * q.val = q.val; rw [e9]; omega

def G2 (aggf hsf : Fin 100000 → Fin 128 → EReal) (df : Fin 100000 → EReal) (bf : Fin 128 → EReal) (wf : Fin 128 → Fin 128 → EReal) : S100000x128.Idx → EReal :=
  fun i => Cert.Gcn.proj (fun p k => max (df p * (aggf p k + hsf p k) + bf k) 0) wf (i 0) (i 1) * df (i 0)

theorem flushed2_eq (c : Dev nD) (aggf hsf : Fin 100000 → Fin 128 → EReal) (df : Fin 100000 → EReal) (bf : Fin 128 → EReal) (wf : Fin 128 → Fin 128 → EReal)
    (ha : ∀ p k, V c main_v33 (ix2 p k) = aggf p k) (hh : ∀ p k, V c main_v22 (ix2 p k) = hsf p k)
    (hd : ∀ p, V c main_v34 (ix2 p (0 : Fin 1)) = df p) (hb : ∀ k, V c main_v35 (ix2 (0 : Fin 1) k) = bf k)
    (hw : ∀ k q, V c main_arg8 (ix2 k q) = wf k q) (t : Fin cfg2.N) :
    (dat2 (F := Ideal) V c).flushed 5 t = ((cfg2.win 5).blk t).view.read (Elt Ideal) (G2 aggf hsf df bf wf) := by
  show (cfg2.win 5).cut (grid2.coords t) ((dat2 V c).after 5 t) = _
  rw [after2_5]
  unfold out2_5
  rw [View.canon_unit_zero zero_offs2]
  simp only [View.ld_unit_zero (S := S5000x1) zero_offs2, View.ld_unit_zero (S := S5000x128) zero_offs2, View.ld_unit_zero (S := S1x128) zero_offs2, View.ld_unit_zero (S := S128x128) zero_offs2]
  funext j
  obtain ⟨a, b, rfl⟩ : ∃ (a : Fin 5000) (b : Fin 128), j = ix2 a b := ⟨j 0, j 1, eq_ix2 j⟩
  have hN : cfg2.N = 20 := N_2
  have ht : t.val < 20 := hN ▸ t.isLt
  let r : Fin 100000 := ⟨t.val * 5000 + a.val, by have := a.isLt; omega⟩
  have hr : r.val = t.val * 5000 + a.val := rfl
  obtain ⟨-, -, -, -, -, -, -, -, -, -, e10, e11⟩ := idx_facts2 t
  have hemb : ((cfg2.win 5).blk t).view.emb (ix2 a b) = ix2 r b := funext fun ax => Fin.ext (by
    match ax with
    | ⟨0, _⟩ => show win2_5.index t (0 : Fin 2) * 5000 + 1 * a.val = r.val; rw [e10, hr]; omega
    | ⟨1, _⟩ => show win2_5.index t (1 : Fin 2) * 128 + 1 * b.val = b.val; rw [e11]; omega)
  show k2_pay1 (iblk2 V c 2 t) (iblk2 V c 0 t) (iblk2 V c 1 t) (iblk2 V c 3 t) (iblk2 V c 4 t) (ix2 a b) = G2 aggf hsf df bf wf (((cfg2.win 5).blk t).view.emb (ix2 a b))
  rw [k2_pay1_apply, hemb, iblk2_2_apply V c t a r hr, hd]
  show _ = (∑ k : Fin 128, max (df r * (aggf r k + hsf r k) + bf k) 0 * wf k b) * df r
  congr 1
  exact Finset.sum_congr rfl fun k _ => by rw [iblk2_0_apply V c t a k r hr, iblk2_1_apply V c t a k r hr, iblk2_3_apply V c t k, iblk2_4_apply V c t k b, ha, hh, hb, hw]

theorem mem_blk2_5 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v36).slice (win2_5.rect t)).set ↔ _
  rw [View.set_slice_whole, Rect.mem_set_unit]
  exact Iff.rfl

theorem cover2_arr (i : S100000x128.Idx) : ∃ t : Fin cfg2.N, (cfg2.win 5).flush t = true ∧ i ∈ ((cfg2.win 5).blk t).view.set := by
  have hN : cfg2.N = 20 := N_2
  have hi0 : (i 0).val < 100000 := idx2_lt0 i
  have hi1 : (i 1).val < 128 := idx2_lt1 i
  have htl : (i 0).val / 5000 < cfg2.N := by rw [hN]; omega
  obtain ⟨-, -, -, -, -, -, -, -, -, -, e10, e11⟩ := idx_facts2 ⟨(i 0).val / 5000, htl⟩
  refine ⟨⟨(i 0).val / 5000, htl⟩, flush2_5 _, ?_⟩
  rw [mem_blk2_5]
  intro ax
  match ax with
  | ⟨0, _⟩ =>
    show win2_5.index ⟨(i 0).val / 5000, htl⟩ (0 : Fin 2) * 5000 ≤ (i 0).val ∧ (i 0).val < win2_5.index ⟨(i 0).val / 5000, htl⟩ (0 : Fin 2) * 5000 + 5000
    rw [e10]; show (i 0).val / 5000 * 5000 ≤ (i 0).val ∧ (i 0).val < (i 0).val / 5000 * 5000 + 5000; omega
  | ⟨1, _⟩ =>
    show win2_5.index ⟨(i 0).val / 5000, htl⟩ (1 : Fin 2) * 128 ≤ (i 1).val ∧ (i 1).val < win2_5.index ⟨(i 0).val / 5000, htl⟩ (1 : Fin 2) * 128 + 128
    rw [e11]; omega

theorem final2 (c : Dev nD) (aggf hsf : Fin 100000 → Fin 128 → EReal) (df : Fin 100000 → EReal) (bf : Fin 128 → EReal) (wf : Fin 128 → Fin 128 → EReal)
    (ha : ∀ p k, V c main_v33 (ix2 p k) = aggf p k) (hh : ∀ p k, V c main_v22 (ix2 p k) = hsf p k)
    (hd : ∀ p, V c main_v34 (ix2 p (0 : Fin 1)) = df p) (hb : ∀ k, V c main_v35 (ix2 (0 : Fin 1) k) = bf k)
    (hw : ∀ k q, V c main_arg8 (ix2 k q) = wf k q) :
    ∀ (p : Fin 100000) (q : Fin 128), (dat2 (F := Ideal) V c).arrAt 5 cfg2.N (ix2 p q)
      = Cert.Gcn.proj (fun p k => max (df p * (aggf p k + hsf p k) + bf k) 0) wf p q * df p := by
  intro p q
  rw [(dat2 (F := Ideal) V c).arrAt_eq_of_cover 5 (G2 aggf hsf df bf wf) (fun t _ => flushed2_eq V c aggf hsf df bf wf ha hh hd hb hw t) cover2_arr]
  rfl

end Cert.KernelIdeal.HandValue

end
-- ==== Proof.Val3Pay.lean ====
import proofs.«428218_j42571715838145_2_alg».proof.Proof.Gen.KernelIdeal.Skeleton
import Idealize.ShloMosaic.Lib.Pipeline.Value
import Idealize.ShloMosaic.Lib.ValueIdx
import Idealize.ShloMosaic.Lib.ValueIdxCoords
import Idealize.ShloMosaic.Lib.ValueLayout
import Idealize.ShloMosaic.Lib.IdealHost
import Idealize.ShloMosaic.Lib.KernelVsHost
import Idealize.ShloMosaic.PureOps.Ideal.Laws

noncomputable section

namespace Cert.KernelIdeal.HandValue

open Cert.KernelIdeal Cert.KernelIdeal.Gen Idealize.ShloMosaic Idealize.ShloMosaic.ValueIdx Idealize.SL.Sem

variable {α : Type}

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem oneHot_word (x y : BitVec 32) :
    ((((IntOp.cmpi .eq x y).setWidth 32).toInt : ℝ) : EReal) = if x = y then (1 : EReal) else 0 := by
  rw [toInt_setWidth_bit]
  by_cases h : x = y
  · subst h; simp [IntOp.cmpi]
  · simp [IntOp.cmpi, h]

theorem pay5_apply (v17 : Vec Ideal S1000x1 .i32) (r : Fin 1000) (g : Fin 1024) :
    k3_pay5 (F := Ideal) v17 (ix2 r g) = if v17 (ix2 r (0 : Fin 1)) = BitVec.ofNat 32 g.val then (1 : EReal) else 0 := by
  unfold k3_pay5
  simp only [shapeCast_self]
  show ((((IntOp.cmpi .eq (broadcastTo S1000x1024 v17 broadcasts_S1000x1_S1000x1024 (ix2 r g))
    (broadcastTo S1000x1024 (iota .tc S1x1024 32 [1] iota_S1x1024_d1_w32) broadcasts_S1x1024_S1000x1024 (ix2 r g))).setWidth 32).toInt : ℝ) : EReal) = _
  rw [oneHot_word, broadcastTo_a1_ab_apply, broadcastTo_1b_ab_apply, iota_single_apply]

theorem lhs7_1 (j : S1024x128.Idx) (q : dot_S1000x1024_S1000x128_S1024x128_0_0_1_1_n_n.contr.Idx) :
    (dot_S1000x1024_S1000x128_S1024x128_0_0_1_1_n_n.lhsIdx j q 1).val = (j 0).val := by
  unfold DotDims.lhsIdx
  rw [dif_neg (show ¬(1 : Fin S1000x1024.rank) ∈ dot_S1000x1024_S1000x128_S1024x128_0_0_1_1_n_n.lhsBatch by decide), dif_pos (show (1 : Fin S1000x1024.rank) ∈ dot_S1000x1024_S1000x128_S1024x128_0_0_1_1_n_n.lhsNonContracting by decide)]
  rfl

theorem rhs7_1 (j : S1024x128.Idx) (q : dot_S1000x1024_S1000x128_S1024x128_0_0_1_1_n_n.contr.Idx) :
    (dot_S1000x1024_S1000x128_S1024x128_0_0_1_1_n_n.rhsIdx j q 1).val = (j 1).val := by
  unfold DotDims.rhsIdx
  rw [dif_neg (show ¬(1 : Fin S1000x128.rank) ∈ dot_S1000x1024_S1000x128_S1024x128_0_0_1_1_n_n.rhsBatch by decide), dif_pos (show (1 : Fin S1000x128.rank) ∈ dot_S1000x1024_S1000x128_S1024x128_0_0_1_1_n_n.rhsNonContracting by decide)]
  rfl

theorem lhs6_1 (j : S1024x1.Idx) (q : dot_S1000x1024_S1000x1_S1024x1_0_0_1_1_n_n.contr.Idx) :
    (dot_S1000x1024_S1000x1_S1024x1_0_0_1_1_n_n.lhsIdx j q 1).val = (j 0).val := by
  unfold DotDims.lhsIdx
  rw [dif_neg (show ¬(1 : Fin S1000x1024.rank) ∈ dot_S1000x1024_S1000x1_S1024x1_0_0_1_1_n_n.lhsBatch by decide), dif_pos (show (1 : Fin S1000x1024.rank) ∈ dot_S1000x1024_S1000x1_S1024x1_0_0_1_1_n_n.lhsNonContracting by decide)]
  rfl

theorem lhs2_0 (j : S1024x1.Idx) (q : dot_S1024x128_S128x1_S1024x1_1_0_0_1_n_n.contr.Idx) :
    (dot_S1024x128_S128x1_S1024x1_1_0_0_1_n_n.lhsIdx j q 0).val = (j 0).val := by
  unfold DotDims.lhsIdx
  rw [dif_neg (show ¬(0 : Fin S1024x128.rank) ∈ dot_S1024x128_S128x1_S1024x1_1_0_0_1_n_n.lhsBatch by decide), dif_pos (show (0 : Fin S1024x128.rank) ∈ dot_S1024x128_S128x1_S1024x1_1_0_0_1_n_n.lhsNonContracting by decide)]
  rfl

theorem rhs2_1 (j : S1024x1.Idx) (q : dot_S1024x128_S128x1_S1024x1_1_0_0_1_n_n.contr.Idx) :
    (dot_S1024x128_S128x1_S1024x1_1_0_0_1_n_n.rhsIdx j q 1).val = (j 1).val := by
  unfold DotDims.rhsIdx
  rw [dif_neg (show ¬(1 : Fin S128x1.rank) ∈ dot_S1024x128_S128x1_S1024x1_1_0_0_1_n_n.rhsBatch by decide), dif_pos (show (1 : Fin S128x1.rank) ∈ dot_S1024x128_S128x1_S1024x1_1_0_0_1_n_n.rhsNonContracting by decide)]
  rfl

theorem lhs7 (g : Fin 1024) (k : Fin 128) (r : Fin 1000) :
    dot_S1000x1024_S1000x128_S1024x128_0_0_1_1_n_n.lhsIdx (ix2 g k) ((contrEquiv1 dot_S1000x1024_S1000x128_S1024x128_0_0_1_1_n_n 1000 rfl rfl).symm r) = ix2 r g :=
  funext fun a => Fin.ext (by
    match a with
    | ⟨0, _⟩ => exact (dot_S1000x1024_S1000x128_S1024x128_0_0_1_1_n_n.lhsIdx_val_of_single rfl _ _).trans (contrEquiv1_symm_val dot_S1000x1024_S1000x128_S1024x128_0_0_1_1_n_n 1000 rfl rfl r)
    | ⟨1, _⟩ => exact lhs7_1 _ _)

theorem rhs7 (g : Fin 1024) (k : Fin 128) (r : Fin 1000) :
    dot_S1000x1024_S1000x128_S1024x128_0_0_1_1_n_n.rhsIdx (ix2 g k) ((contrEquiv1 dot_S1000x1024_S1000x128_S1024x128_0_0_1_1_n_n 1000 rfl rfl).symm r) = ix2 r k :=
  funext fun a => Fin.ext (by
    match a with
    | ⟨0, _⟩ => exact (dot_S1000x1024_S1000x128_S1024x128_0_0_1_1_n_n.rhsIdx_val_of_single rfl _ _).trans (contrEquiv1_symm_val dot_S1000x1024_S1000x128_S1024x128_0_0_1_1_n_n 1000 rfl rfl r)
    | ⟨1, _⟩ => exact rhs7_1 _ _)

theorem lhs6 (g : Fin 1024) (r : Fin 1000) :
    dot_S1000x1024_S1000x1_S1024x1_0_0_1_1_n_n.lhsIdx (ix2 g (0 : Fin 1)) ((contrEquiv1 dot_S1000x1024_S1000x1_S1024x1_0_0_1_1_n_n 1000 rfl rfl).symm r) = ix2 r g :=
  funext fun a => Fin.ext (by
    match a with
    | ⟨0, _⟩ => exact (dot_S1000x1024_S1000x1_S1024x1_0_0_1_1_n_n.lhsIdx_val_of_single rfl _ _).trans (contrEquiv1_symm_val dot_S1000x1024_S1000x1_S1024x1_0_0_1_1_n_n 1000 rfl rfl r)
    | ⟨1, _⟩ => exact lhs6_1 _ _)

theorem lhs2 (g : Fin 1024) (o : Fin 1) (k : Fin 128) :
    dot_S1024x128_S128x1_S1024x1_1_0_0_1_n_n.lhsIdx (ix2 g o) ((contrEquiv1 dot_S1024x128_S128x1_S1024x1_1_0_0_1_n_n 128 rfl rfl).symm k) = ix2 g k :=
  funext fun a => Fin.ext (by
    match a with
    | ⟨0, _⟩ => exact lhs2_0 _ _
    | ⟨1, _⟩ => exact (dot_S1024x128_S128x1_S1024x1_1_0_0_1_n_n.lhsIdx_val_of_single rfl _ _).trans (contrEquiv1_symm_val dot_S1024x128_S128x1_S1024x1_1_0_0_1_n_n 128 rfl rfl k))

theorem rhs2 (g : Fin 1024) (o : Fin 1) (k : Fin 128) :
    dot_S1024x128_S128x1_S1024x1_1_0_0_1_n_n.rhsIdx (ix2 g o) ((contrEquiv1 dot_S1024x128_S128x1_S1024x1_1_0_0_1_n_n 128 rfl rfl).symm k) = ix2 k o :=
  funext fun a => Fin.ext (by
    match a with
    | ⟨0, _⟩ => exact (dot_S1024x128_S128x1_S1024x1_1_0_0_1_n_n.rhsIdx_val_of_single rfl _ _).trans (contrEquiv1_symm_val dot_S1024x128_S128x1_S1024x1_1_0_0_1_n_n 128 rfl rfl k)
    | ⟨1, _⟩ => exact rhs2_1 _ _)

theorem pay7_apply (v3 : Vec Ideal S1000x1 .f32) (v5 : Vec Ideal S1000x128 .f32) (v7 : Vec Ideal S1000x128 .bf16)
    (v13 : Vec Ideal S1x128 .f32) (v17 : Vec Ideal S1000x1 .i32) (v30 : Vec Ideal S1024x128 .f32) (g : Fin 1024) (k : Fin 128) :
    k3_pay7 (F := Ideal) v3 v5 v7 v13 v17 v30 (ix2 g k) = v30 (ix2 g k) + ∑ r : Fin 1000,
      (if v17 (ix2 r (0 : Fin 1)) = BitVec.ofNat 32 g.val then (1 : EReal) else 0)
        * (v3 (ix2 r (0 : Fin 1)) * (v5 (ix2 r k) + v7 (ix2 r k)) + v13 (ix2 (0 : Fin 1) k)) := by
  unfold k3_pay7
  simp only [shapeCast_self, matmul]
  rw [addf_apply, Ideal.matmul_constant_zero_apply,
    ← Equiv.sum_comp (contrEquiv1 dot_S1000x1024_S1000x128_S1024x128_0_0_1_1_n_n 1000 rfl rfl).symm]
  refine congrArg (v30 (ix2 g k) + ·) (Finset.sum_congr rfl fun r _ => ?_)
  rw [lhs7, rhs7, pay5_apply]
  show _ * (broadcastTo S1000x128 v3 broadcasts_S1000x1_S1000x128 (ix2 r k) * (v5 (ix2 r k) + v7 (ix2 r k))
    + broadcastTo S1000x128 v13 broadcasts_S1x128_S1000x128 (ix2 r k)) = _
  rw [broadcastTo_a1_ab_apply, broadcastTo_1b_ab_apply]

theorem pay1_pay6_apply (v17 : Vec Ideal S1000x1 .i32) (v35 : Vec Ideal S1024x1 .f32) (g : Fin 1024) :
    k3_pay1 (F := Ideal) (k3_pay6 v17) v35 (ix2 g (0 : Fin 1)) = v35 (ix2 g (0 : Fin 1)) + ∑ r : Fin 1000,
      (if v17 (ix2 r (0 : Fin 1)) = BitVec.ofNat 32 g.val then (1 : EReal) else 0) * 1 := by
  unfold k3_pay1 k3_pay6
  simp only [shapeCast_self, matmul]
  rw [addf_apply, Ideal.matmul_constant_zero_apply,
    ← Equiv.sum_comp (contrEquiv1 dot_S1000x1024_S1000x1_S1024x1_0_0_1_1_n_n 1000 rfl rfl).symm]
  refine congrArg (v35 (ix2 g (0 : Fin 1)) + ·) (Finset.sum_congr rfl fun r _ => ?_)
  rw [lhs6, pay5_apply]
  show _ * Ideal.ofBits .bf16 0x3F80#16 = _
  rw [Ideal.ofBits_one_bf16]

theorem pay3_apply (i : S1024x128.Idx) : k3_pay3 (F := Ideal) i = 0 := by
  unfold k3_pay3
  simp only [shapeCast_self]
  exact Ideal.ofBits_zero_f32

theorem pay4_apply (i : S1024x1.Idx) : k3_pay4 (F := Ideal) i = 0 := by
  unfold k3_pay4
  simp only [shapeCast_self]
  exact Ideal.ofBits_zero_f32

theorem pay2_apply (v43 : Vec Ideal S1024x128 .f32) (v44 : Vec Ideal S1024x1 .f32) (v49 : Vec Ideal S128x1 .f32)
    (v53 : Vec Ideal S1x1 .f32) (g : Fin 1000) (o : Fin 1) :
    k3_pay2 (F := Ideal) v43 v44 v49 v53 (ix2 g o) =
      (∑ k : Fin 128, Ideal.div (v43 (ix2 (⟨g.val, by omega⟩ : Fin 1024) k)) (max (v44 (ix2 (⟨g.val, by omega⟩ : Fin 1024) (0 : Fin 1))) 1) * v49 (ix2 k o))
        + v53 (ix2 (0 : Fin 1) o) := by
  unfold k3_pay2
  simp only [shapeCast_self, matmul]
  rw [extractStridedSlice_apply ![0, 0] _ slices_S1024x1_o0_0_S1000x1 (ix2 g o) (ix2 (⟨g.val, by omega⟩ : Fin 1024) o)
    (fun a => by match a with
      | ⟨0, _⟩ => exact (Nat.zero_add _).symm
      | ⟨1, _⟩ => exact (Nat.zero_add _).symm)]
  rw [addf_apply, Ideal.matmul_constant_zero_apply,
    ← Equiv.sum_comp (contrEquiv1 dot_S1024x128_S128x1_S1024x1_1_0_0_1_n_n 128 rfl rfl).symm, broadcastTo_1b_ab_apply]
  refine congrArg (· + v53 (ix2 (0 : Fin 1) o)) (Finset.sum_congr rfl fun k _ => ?_)
  rw [lhs2, rhs2]
  show Ideal.div (v43 (ix2 (⟨g.val, by omega⟩ : Fin 1024) k))
    (broadcastTo S1024x128 (maximumf (F := Ideal) v44 (broadcast S1024x1 (Scalar.ofBits .f32 0x3F800000#32))) broadcasts_S1024x1_S1024x128 (ix2 (⟨g.val, by omega⟩ : Fin 1024) k))
      * v49 (ix2 k o) = _
  rw [broadcastTo_a1_ab_apply]
  show Ideal.div _ (max _ (Ideal.ofBits .f32 0x3F800000#32)) * _ = _
  rw [Ideal.ofBits_one_f32]

end Cert.KernelIdeal.HandValue

end
-- ==== Proof.Val3Fold.lean ====
import proofs.«428218_j42571715838145_2_alg».proof.Proof.Spec
import Mathlib.Algebra.BigOperators.Fin
import Mathlib.Algebra.BigOperators.Group.Finset.Basic
import Mathlib.Logic.Equiv.Fin.Basic
import Mathlib.Data.EReal.Basic

noncomputable section

namespace Cert.KernelIdeal.HandValue

open Cert.Gcn

theorem toInt_ofNat_small (g : ℕ) (hg : g < 1024) : (BitVec.ofNat 32 g).toInt = (g : ℤ) := by
  rw [BitVec.toInt_eq_toNat_cond, BitVec.toNat_ofNat, Nat.mod_eq_of_lt (by omega : g < 2 ^ 32), if_pos (by omega)]

theorem word_eq_ofNat_iff (w : BitVec 32) (g : ℕ) (hg : g < 1024) : w = BitVec.ofNat 32 g ↔ w.toInt = (g : ℤ) := by
  constructor
  · rintro rfl; exact toInt_ofNat_small g hg
  · intro h; exact BitVec.eq_of_toInt_eq (h.trans (toInt_ofNat_small g hg).symm)

theorem word_eq_iff_inGraph (batch : Fin NN → BitVec 32) (i : Fin NN) (g : Fin NG) :
    batch i = BitVec.ofNat 32 g.val ↔ inGraph batch i g :=
  word_eq_ofNat_iff (batch i) g.val (by have := g.isLt; unfold NG at this; omega)

theorem oneHot_mul (p : Prop) [Decidable p] (h : EReal) : (if p then (1 : EReal) else 0) * h = if p then h else 0 := by
  split
  · exact one_mul h
  · exact zero_mul h

theorem oneHot_mul_inGraph (batch : Fin NN → BitVec 32) (i : Fin NN) (g : Fin NG) (h : EReal) :
    (if batch i = BitVec.ofNat 32 g.val then (1 : EReal) else 0) * h = if inGraph batch i g then h else 0 := by
  rw [oneHot_mul]
  exact if_congr (word_eq_iff_inGraph batch i g) rfl rfl

theorem sum_blocks {M : Type*} [AddCommMonoid M] (f : Fin 100000 → M) :
    ∑ n : Fin 100, ∑ r : Fin 1000, f ⟨1000 * n.val + r.val, by have := n.isLt; have := r.isLt; omega⟩ = ∑ i : Fin 100000, f i := by
  rw [← Fintype.sum_prod_type']
  refine Eq.trans ?_ (Equiv.sum_comp (finProdFinEquiv (m := 100) (n := 1000)) (fun i : Fin (100 * 1000) => f i))
  refine Finset.sum_congr rfl fun p _ => congrArg f (Fin.ext ?_)
  show 1000 * p.1.val + p.2.val = p.2.val + 1000 * p.1.val
  omega

theorem fold_eq_sum {M : Type*} [AddCommMonoid M] (N : ℕ) (a : (n : ℕ) → n < N → M) (B : Fin N → M)
    (h0 : ∀ h, a 0 h = B ⟨0, h⟩) (hs : ∀ n (h : n + 1 < N), a (n + 1) h = a n (by omega) + B ⟨n + 1, h⟩) :
    ∀ n (h : n < N), a n h = ∑ t : Fin (n + 1), B ⟨t.val, by have := t.isLt; omega⟩ := by
  intro n
  induction n with
  | zero =>
    intro h
    rw [h0 h, Fin.sum_univ_one]
    rfl
  | succ n ih =>
    intro h
    rw [hs n h, ih (by omega)]
    exact (Fin.sum_univ_castSucc (fun t : Fin (n + 1 + 1) => B ⟨t.val, by have := t.isLt; omega⟩)).symm

theorem fold_last {M : Type*} [AddCommMonoid M] (N : ℕ) (a : (n : ℕ) → n < N → M) (B : Fin N → M)
    (h0 : ∀ h, a 0 h = B ⟨0, h⟩) (hs : ∀ n (h : n + 1 < N), a (n + 1) h = a n (by omega) + B ⟨n + 1, h⟩)
    (n : ℕ) (hn : n + 1 = N) : a n (by omega) = ∑ t : Fin N, B t := by
  subst hn
  rw [fold_eq_sum (n + 1) a B h0 hs n (by omega)]

end Cert.KernelIdeal.HandValue

end
-- ==== Proof.Val3.lean ====
import proofs.«428218_j42571715838145_2_alg».proof.Proof.Reg3
import proofs.«428218_j42571715838145_2_alg».proof.Proof.Val3Pay
import proofs.«428218_j42571715838145_2_alg».proof.Proof.Val3Fold
import proofs.«428218_j42571715838145_2_alg».proof.Proof.Spec
import Idealize.ShloMosaic.Lib.Pipeline.Value
import Idealize.ShloMosaic.Lib.ValueIdx

set_option maxRecDepth 16384

noncomputable section
namespace Cert.KernelIdeal.HandValue
open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem coord3 (t : Fin cfg3.N) : (grid3.coords t 0).val = t.val := by
  have hN : cfg3.N = 100 := N_3
  have := t.isLt
  show t.val / grid3.stride 0 % 100 = t.val
  rw [show grid3.stride 0 = 1 from by decide, Nat.div_one, Nat.mod_eq_of_lt (by omega)]

theorem index3_0_0 (t : Fin cfg3.N) : win3_0.index t 0 = t.val := by
  have hN : cfg3.N = 100 := N_3
  have := t.isLt
  show (BitVec.ofNat 32 (grid3.coords t 0).val).toNat = t.val
  rw [coord3, BitVec.toNat_ofNat, Nat.mod_eq_of_lt (by omega)]

theorem blk3_0_apply (c : Dev nD) (t : Fin cfg3.N) (r : Fin 1000) (k : Fin 128) :
    ((((cfg3.win 0).blk t).view.read (Elt Ideal) (V c (Pipeline.arrRef spec3 0))) : Vec Ideal S1000x128 .f32) (ix2 r k)
      = V c main_v47 (ix2 (⟨1000 * t.val + r.val, by have hN : cfg3.N = 100 := N_3; have := t.isLt; have := r.isLt; omega⟩ : Fin 100000) k) := by
  rw [View.read_apply]
  show V c main_v47 _ = V c main_v47 _
  congr 1
  funext a
  apply Fin.ext
  match a with
  | ⟨0, _⟩ =>
    show win3_0.index t 0 * 1000 + 1 * r.val = 1000 * t.val + r.val
    rw [index3_0_0]; omega
  | ⟨1, _⟩ =>
    show 0 * 128 + 1 * k.val = k.val
    omega

theorem index3_1_0 (t : Fin cfg3.N) : win3_1.index t 0 = t.val := by
  have hN : cfg3.N = 100 := N_3
  have := t.isLt
  show (BitVec.ofNat 32 (grid3.coords t 0).val).toNat = t.val
  rw [coord3, BitVec.toNat_ofNat, Nat.mod_eq_of_lt (by omega)]

theorem blk3_1_apply (c : Dev nD) (t : Fin cfg3.N) (r : Fin 1000) (k : Fin 128) :
    ((((cfg3.win 1).blk t).view.read (Elt Ideal) (V c (Pipeline.arrRef spec3 1))) : Vec Ideal S1000x128 .bf16) (ix2 r k)
      = V c main_v36 (ix2 (⟨1000 * t.val + r.val, by have hN : cfg3.N = 100 := N_3; have := t.isLt; have := r.isLt; omega⟩ : Fin 100000) k) := by
  rw [View.read_apply]
  show V c main_v36 _ = V c main_v36 _
  congr 1
  funext a
  apply Fin.ext
  match a with
  | ⟨0, _⟩ =>
    show win3_1.index t 0 * 1000 + 1 * r.val = 1000 * t.val + r.val
    rw [index3_1_0]; omega
  | ⟨1, _⟩ =>
    show 0 * 128 + 1 * k.val = k.val
    omega

theorem index3_2_0 (t : Fin cfg3.N) : win3_2.index t 0 = t.val := by
  have hN : cfg3.N = 100 := N_3
  have := t.isLt
  show (BitVec.ofNat 32 (grid3.coords t 0).val).toNat = t.val
  rw [coord3, BitVec.toNat_ofNat, Nat.mod_eq_of_lt (by omega)]

theorem blk3_2_apply (c : Dev nD) (t : Fin cfg3.N) (r : Fin 1000) (k : Fin 1) :
    ((((cfg3.win 2).blk t).view.read (Elt Ideal) (V c (Pipeline.arrRef spec3 2))) : Vec Ideal S1000x1 .f32) (ix2 r k)
      = V c main_v49 (ix2 (⟨1000 * t.val + r.val, by have hN : cfg3.N = 100 := N_3; have := t.isLt; have := r.isLt; omega⟩ : Fin 100000) k) := by
  rw [View.read_apply]
  show V c main_v49 _ = V c main_v49 _
  congr 1
  funext a
  apply Fin.ext
  match a with
  | ⟨0, _⟩ =>
    show win3_2.index t 0 * 1000 + 1 * r.val = 1000 * t.val + r.val
    rw [index3_2_0]; omega
  | ⟨1, _⟩ =>
    show 0 * 1 + 1 * k.val = k.val
    omega

theorem index3_4_0 (t : Fin cfg3.N) : win3_4.index t 0 = t.val := by
  have hN : cfg3.N = 100 := N_3
  have := t.isLt
  show (BitVec.ofNat 32 (grid3.coords t 0).val).toNat = t.val
  rw [coord3, BitVec.toNat_ofNat, Nat.mod_eq_of_lt (by omega)]

theorem blk3_4_apply (c : Dev nD) (t : Fin cfg3.N) (r : Fin 1000) (k : Fin 1) :
    ((((cfg3.win 4).blk t).view.read (Elt Ideal) (V c (Pipeline.arrRef spec3 4))) : Vec Ideal S1000x1 .i32) (ix2 r k)
      = V c main_v48 (ix2 (⟨1000 * t.val + r.val, by have hN : cfg3.N = 100 := N_3; have := t.isLt; have := r.isLt; omega⟩ : Fin 100000) k) := by
  rw [View.read_apply]
  show V c main_v48 _ = V c main_v48 _
  congr 1
  funext a
  apply Fin.ext
  match a with
  | ⟨0, _⟩ =>
    show win3_4.index t 0 * 1000 + 1 * r.val = 1000 * t.val + r.val
    rw [index3_4_0]; omega
  | ⟨1, _⟩ =>
    show 0 * 1 + 1 * k.val = k.val
    omega

theorem blk3_3_apply (c : Dev nD) (t : Fin cfg3.N) (r : Fin 1) (k : Fin 128) :
    ((((cfg3.win 3).blk t).view.read (Elt Ideal) (V c (Pipeline.arrRef spec3 3))) : Vec Ideal S1x128 .f32) (ix2 r k)
      = V c main_v50 (ix2 r k) := by
  rw [View.read_apply]
  show V c main_v50 _ = V c main_v50 _
  congr 1
  funext a
  apply Fin.ext
  match a with
  | ⟨0, _⟩ =>
    show 0 * 1 + 1 * r.val = r.val
    omega
  | ⟨1, _⟩ =>
    show 0 * 128 + 1 * k.val = k.val
    omega

theorem blk3_5_apply (c : Dev nD) (t : Fin cfg3.N) (r : Fin 128) (k : Fin 1) :
    ((((cfg3.win 5).blk t).view.read (Elt Ideal) (V c (Pipeline.arrRef spec3 5))) : Vec Ideal S128x1 .f32) (ix2 r k)
      = V c main_arg10 (ix2 r k) := by
  rw [View.read_apply]
  show V c main_arg10 _ = V c main_arg10 _
  congr 1
  funext a
  apply Fin.ext
  match a with
  | ⟨0, _⟩ =>
    show 0 * 128 + 1 * r.val = r.val
    omega
  | ⟨1, _⟩ =>
    show 0 * 1 + 1 * k.val = k.val
    omega

theorem blk3_6_apply (c : Dev nD) (t : Fin cfg3.N) (r : Fin 1) (k : Fin 1) :
    ((((cfg3.win 6).blk t).view.read (Elt Ideal) (V c (Pipeline.arrRef spec3 6))) : Vec Ideal S1x1 .f32) (ix2 r k)
      = V c main_v51 (ix2 r k) := by
  rw [View.read_apply]
  show V c main_v51 _ = V c main_v51 _
  congr 1
  funext a
  apply Fin.ext
  match a with
  | ⟨0, _⟩ =>
    show 0 * 1 + 1 * r.val = r.val
    omega
  | ⟨1, _⟩ =>
    show 0 * 1 + 1 * k.val = k.val
    omega

abbrev t99 : Fin cfg3.N := ⟨99, by rw [show cfg3.N = 100 from N_3]; decide⟩

theorem cover3_7 (c : Dev nD) (i : ((cfg3.win 7).arr.view.loc (c.tc : Thread nD τ)).2.ty.Idx) :
    ∃ t : Fin cfg3.N, (cfg3.win 7).flush t = true ∧ i ∈ ((cfg3.win 7).blk t).view.set :=
  ⟨t99, (flush3_7 t99).mpr rfl, by
    show i ∈ ((View.whole main_v52).slice (win3_7.rect t99)).set
    rw [View.set_slice_whole, Rect.mem_set_unit]
    intro a
    have h0 : (i 0 : Nat) < 1000 := (i 0).isLt
    have h1 : (i 1 : Nat) < 1 := (i 1).isLt
    match a with
    | ⟨0, _⟩ =>
      show 0 * 1000 ≤ (i 0 : Nat) ∧ (i 0 : Nat) < 0 * 1000 + 1000
      omega
    | ⟨1, _⟩ =>
      show 0 * 1 ≤ (i 1 : Nat) ∧ (i 1 : Nat) < 0 * 1 + 1
      omega⟩

theorem out3_7_eq' (c : Dev nD) (t : Fin cfg3.N) :
    out3_7 (F := Ideal) V c t = k3_pay2 (sAcc V c t.val t.isLt) (cAcc V c t.val t.isLt) (iblk3 V c 5 t) (iblk3 V c 6 t) := by
  unfold out3_7
  exact View.canon_unit_zero hz2 _ _

abbrev row3 (t : Fin cfg3.N) (r : Fin 1000) : Fin 100000 :=
  ⟨1000 * t.val + r.val, by have hN : cfg3.N = 100 := N_3; have := t.isLt; have := r.isLt; omega⟩

theorem iblk3_0_apply (c : Dev nD) (t : Fin cfg3.N) (r : Fin 1000) (k : Fin 128) :
    (iblk3 (F := Ideal) V c 0 t : Vec Ideal S1000x128 .f32) (ix2 r k) = V c main_v47 (ix2 (row3 t r) k) := blk3_0_apply V c t r k
theorem iblk3_1_apply (c : Dev nD) (t : Fin cfg3.N) (r : Fin 1000) (k : Fin 128) :
    (iblk3 (F := Ideal) V c 1 t : Vec Ideal S1000x128 .bf16) (ix2 r k) = V c main_v36 (ix2 (row3 t r) k) := blk3_1_apply V c t r k
theorem iblk3_2_apply (c : Dev nD) (t : Fin cfg3.N) (r : Fin 1000) (k : Fin 1) :
    (iblk3 (F := Ideal) V c 2 t : Vec Ideal S1000x1 .f32) (ix2 r k) = V c main_v49 (ix2 (row3 t r) k) := blk3_2_apply V c t r k
theorem iblk3_4_apply (c : Dev nD) (t : Fin cfg3.N) (r : Fin 1000) (k : Fin 1) :
    (iblk3 (F := Ideal) V c 4 t : Vec Ideal S1000x1 .i32) (ix2 r k) = V c main_v48 (ix2 (row3 t r) k) := blk3_4_apply V c t r k
theorem iblk3_3_apply (c : Dev nD) (t : Fin cfg3.N) (r : Fin 1) (k : Fin 128) :
    (iblk3 (F := Ideal) V c 3 t : Vec Ideal S1x128 .f32) (ix2 r k) = V c main_v50 (ix2 r k) := blk3_3_apply V c t r k
theorem iblk3_5_apply (c : Dev nD) (t : Fin cfg3.N) (r : Fin 128) (k : Fin 1) :
    (iblk3 (F := Ideal) V c 5 t : Vec Ideal S128x1 .f32) (ix2 r k) = V c main_arg10 (ix2 r k) := blk3_5_apply V c t r k
theorem iblk3_6_apply (c : Dev nD) (t : Fin cfg3.N) (r : Fin 1) (k : Fin 1) :
    (iblk3 (F := Ideal) V c 6 t : Vec Ideal S1x1 .f32) (ix2 r k) = V c main_v51 (ix2 r k) := blk3_6_apply V c t r k

def affine (d a h b : EReal) : EReal := d * (a + h) + b

def hrow (c : Dev nD) (p : Fin 100000) (k : Fin 128) : EReal :=
  affine (V c main_v49 (ix2 p (0 : Fin 1))) (V c main_v47 (ix2 p k)) (V c main_v36 (ix2 p k)) (V c main_v50 (ix2 (0 : Fin 1) k))

def bword (c : Dev nD) (p : Fin 100000) : BitVec 32 := V c main_v48 (ix2 p (0 : Fin 1))

def BS (c : Dev nD) (g' : Fin 1024) (k : Fin 128) (t : Fin cfg3.N) : EReal :=
  ∑ r : Fin 1000, (if bword V c (row3 t r) = BitVec.ofNat 32 g'.val then (1 : EReal) else 0) * hrow V c (row3 t r) k

def BC (c : Dev nD) (g' : Fin 1024) (t : Fin cfg3.N) : EReal :=
  ∑ r : Fin 1000, (if bword V c (row3 t r) = BitVec.ofNat 32 g'.val then (1 : EReal) else 0) * 1

theorem step7 (c : Dev nD) (t : Fin cfg3.N) (v30 : Vec Ideal S1024x128 .f32) (g' : Fin 1024) (k : Fin 128) :
    k3_pay7 (F := Ideal) (iblk3 V c 2 t) (iblk3 V c 0 t) (iblk3 V c 1 t) (iblk3 V c 3 t) (iblk3 V c 4 t) v30 (ix2 g' k)
      = v30 (ix2 g' k) + BS V c g' k t := by
  refine (pay7_apply _ _ _ _ _ _ g' k).trans ?_
  refine congrArg (v30 (ix2 g' k) + ·) (Finset.sum_congr rfl fun r _ => ?_)
  rw [iblk3_4_apply, iblk3_2_apply, iblk3_0_apply, iblk3_1_apply, iblk3_3_apply]
  rfl

theorem step1 (c : Dev nD) (t : Fin cfg3.N) (v35 : Vec Ideal S1024x1 .f32) (g' : Fin 1024) :
    k3_pay1 (F := Ideal) (k3_pay6 (iblk3 V c 4 t)) v35 (ix2 g' (0 : Fin 1)) = v35 (ix2 g' (0 : Fin 1)) + BC V c g' t := by
  refine (pay1_pay6_apply _ _ g').trans ?_
  refine congrArg (v35 (ix2 g' (0 : Fin 1)) + ·) (Finset.sum_congr rfl fun r _ => ?_)
  rw [iblk3_4_apply]
  rfl

theorem sAcc_last (c : Dev nD) (g' : Fin 1024) (k : Fin 128) :
    sAcc (F := Ideal) V c t99.val t99.isLt (ix2 g' k) = ∑ t : Fin cfg3.N, BS V c g' k t :=
  fold_last cfg3.N (fun n h => sAcc (F := Ideal) V c n h (ix2 g' k)) (BS V c g' k)
    (fun h => (congrFun (sAcc_zero V c h) _).trans ((step7 V c ⟨0, h⟩ (k3_pay3 (F := Ideal)) g' k).trans (by rw [pay3_apply, zero_add])))
    (fun n h => (congrFun (sAcc_succ V c n h) _).trans (step7 V c ⟨n + 1, h⟩ _ g' k))
    99 (by rw [show cfg3.N = 100 from N_3])

theorem cAcc_last (c : Dev nD) (g' : Fin 1024) :
    cAcc (F := Ideal) V c t99.val t99.isLt (ix2 g' (0 : Fin 1)) = ∑ t : Fin cfg3.N, BC V c g' t :=
  fold_last cfg3.N (fun n h => cAcc (F := Ideal) V c n h (ix2 g' (0 : Fin 1))) (BC V c g')
    (fun h => (congrFun (cAcc_zero V c h) _).trans ((step1 V c ⟨0, h⟩ (k3_pay4 (F := Ideal)) g').trans (by rw [pay4_apply, zero_add])))
    (fun n h => (congrFun (cAcc_succ V c n h) _).trans (step1 V c ⟨n + 1, h⟩ _ g'))
    99 (by rw [show cfg3.N = 100 from N_3])

theorem sum_blocks_N {M : Type*} [AddCommMonoid M] (N : ℕ) (hN : N = 100) (f : Fin 100000 → M) :
    ∑ n : Fin N, ∑ r : Fin 1000, f ⟨1000 * n.val + r.val, by have := n.isLt; have := r.isLt; omega⟩ = ∑ i : Fin 100000, f i := by
  subst hN
  exact sum_blocks f

section
variable (c : Dev nD) (aggf hsf : Fin 100000 → Fin 128 → EReal) (df : Fin 100000 → EReal) (bf : Fin 128 → EReal)
  (batchf : Fin 100000 → BitVec 32)
  (ha : ∀ p k, V c main_v47 (ix2 p k) = aggf p k) (hh : ∀ p k, V c main_v36 (ix2 p k) = hsf p k)
  (hd : ∀ p, V c main_v49 (ix2 p (0 : Fin 1)) = df p) (hb : ∀ k, V c main_v50 (ix2 (0 : Fin 1) k) = bf k)
  (hbat : ∀ p, V c main_v48 (ix2 p (0 : Fin 1)) = batchf p)
include ha hh hd hb in
theorem hrow_eq (p : Fin 100000) (k : Fin 128) : hrow V c p k = df p * (aggf p k + hsf p k) + bf k := by
  unfold hrow
  rw [ha, hh, hd, hb]
  rfl

include ha hh hd hb hbat in

theorem sum_BS (g : Fin 1000) (k : Fin 128) :
    ∑ t : Fin cfg3.N, BS V c ⟨g.val, by have := g.isLt; omega⟩ k t
      = Cert.Gcn.poolSum batchf (fun i k => df i * (aggf i k + hsf i k) + bf k) g k := by
  unfold Cert.Gcn.poolSum
  refine Eq.trans ?_ (sum_blocks_N cfg3.N N_3 (fun i => if Cert.Gcn.inGraph batchf i g then df i * (aggf i k + hsf i k) + bf k else 0))
  refine Finset.sum_congr rfl fun t _ => ?_
  unfold BS
  refine Finset.sum_congr rfl fun r _ => ?_
  rw [hrow_eq V c aggf hsf df bf ha hh hd hb, show bword V c (row3 t r) = batchf (row3 t r) from hbat _]
  exact oneHot_mul_inGraph batchf (row3 t r) g _

include hbat in

theorem sum_BC (g : Fin 1000) :
    ∑ t : Fin cfg3.N, BC V c ⟨g.val, by have := g.isLt; omega⟩ t = Cert.Gcn.poolCnt batchf g := by
  unfold Cert.Gcn.poolCnt
  refine Eq.trans ?_ (sum_blocks_N cfg3.N N_3 (fun i => if Cert.Gcn.inGraph batchf i g then (1 : EReal) else 0))
  refine Finset.sum_congr rfl fun t _ => ?_
  unfold BC
  refine Finset.sum_congr rfl fun r _ => ?_
  rw [show bword V c (row3 t r) = batchf (row3 t r) from hbat _]
  exact oneHot_mul_inGraph batchf (row3 t r) g 1
end

abbrev result3 (c : Dev nD) : Buf (Elt Ideal) ((c : Thread nD τ).loc main_v52) := out3_7 (F := Ideal) V c t99

theorem flushed3_7 (c : Dev nD) (t : Fin cfg3.N) (hf : (cfg3.win 7).flush t = true) :
    (dat3 (F := Ideal) V c).flushed 7 t = ((cfg3.win 7).blk t).view.read (Elt Ideal) (result3 V c) := by
  have hN : cfg3.N = 100 := N_3
  have h99 : t.val = 99 := by have := (flush3_7 t).mp hf; have := t.isLt; omega
  obtain rfl : t = t99 := Fin.ext h99
  show (cfg3.win 7).cut (grid3.coords t99) ((dat3 (F := Ideal) V c).after 7 t99) = _
  rw [after3_7]
  have hz' : (fun a => win3_7.index t99 a * main_v52.ty.shape.size a) = fun _ => 0 := funext fun a => by fin_cases a <;> rfl
  exact (Memref.read_access_unit_zero (Elt Ideal) main_v52 hz' (fun a => by rw [congrFun hz' a]; simp) (result3 V c)).symm

theorem arr3_7 (c : Dev nD) : (dat3 (F := Ideal) V c).arrAt 7 cfg3.N = result3 V c :=
  (dat3 (F := Ideal) V c).arrAt_eq_of_cover 7 (result3 V c) (flushed3_7 V c) (cover3_7 c)

theorem final3 (c : Dev nD) (aggf hsf : Fin 100000 → Fin 128 → EReal) (df : Fin 100000 → EReal) (bf : Fin 128 → EReal)
    (batchf : Fin 100000 → BitVec 32) (wlf : Fin 128 → Fin 1 → EReal) (blf : Fin 1 → EReal)
    (ha : ∀ p k, V c main_v47 (ix2 p k) = aggf p k) (hh : ∀ p k, V c main_v36 (ix2 p k) = hsf p k)
    (hd : ∀ p, V c main_v49 (ix2 p (0 : Fin 1)) = df p) (hb : ∀ k, V c main_v50 (ix2 (0 : Fin 1) k) = bf k)
    (hbat : ∀ p, V c main_v48 (ix2 p (0 : Fin 1)) = batchf p) (hwl : ∀ k o, V c main_arg10 (ix2 k o) = wlf k o)
    (hbl : ∀ o, V c main_v51 (ix2 (0 : Fin 1) o) = blf o) :
    ∀ (g : Fin 1000) (o : Fin 1), (dat3 (F := Ideal) V c).arrAt 7 cfg3.N (ix2 g o)
      = Cert.Gcn.readout batchf (fun i k => df i * (aggf i k + hsf i k) + bf k) wlf blf g o := by
  intro g o
  have hG : (dat3 (F := Ideal) V c).arrAt 7 cfg3.N (ix2 g o) = out3_7 (F := Ideal) V c t99 (ix2 g o) := congrFun (arr3_7 V c) _
  refine hG.trans ?_
  rw [out3_7_eq', pay2_apply]
  unfold Cert.Gcn.readout
  rw [iblk3_6_apply, hbl]
  refine congrArg (· + blf o) (Finset.sum_congr rfl fun k _ => ?_)
  rw [sAcc_last, cAcc_last, iblk3_5_apply, hwl, sum_BS V c aggf hsf df bf batchf ha hh hd hb hbat g k, sum_BC V c batchf hbat g]

end Cert.KernelIdeal.HandValue
end
-- ==== Proof.LibScatterRows.lean ====
import Idealize.ShloMosaic.PureOps.Ideal
import Idealize.ShloMosaic.PureOps.Contract
import Idealize.ShloMosaic.Lib.ValueIdx

namespace Cert.ClassStats.Scatter

open Idealize.ShloMosaic Idealize.ShloMosaic.ValueIdx

theorem sum_idx1 {M : Type*} [AddCommMonoid M] {n : ℕ} (g : (⟨1, ![n]⟩ : Shape).Idx → M) :
    ∑ i, g i = ∑ a : Fin n, g (ix1 a) :=
  Fintype.sum_equiv ⟨fun j => j 0, ix1, fun j => (eq_ix1 j).symm, fun _ => rfl⟩ g (fun a => g (ix1 a))
    (fun j => congrArg g (eq_ix1 j))

theorem scatter2_apply {N C D w : ℕ} (d : ScatterDims ⟨2, ![C, D]⟩ ⟨2, ![N, 1]⟩ ⟨2, ![N, D]⟩)
    (x : (⟨2, ![C, D]⟩ : Shape).Idx → EReal) (idx : IVec ⟨2, ![N, 1]⟩ w) (upd : (⟨2, ![N, D]⟩ : Shape).Idx → EReal)
    (c : Fin C) (f : Fin D) (hit : Fin N → Prop) [DecidablePred hit]
    (hchar : ∀ (r : Fin N) (b : Fin D), d.resultIdx? (ix2 r b) idx = some (ix2 c f) ↔ hit r ∧ b = f) :
    Host.scatterAdd (F := Ideal) (φ := .f32) d x idx upd (ix2 c f)
      = x (ix2 c f) + ∑ r : Fin N, if hit r then upd (ix2 r f) else 0 := by
  show x (ix2 c f) + ∑ j ∈ Finset.univ.filter (fun j => d.resultIdx? j idx = some (ix2 c f)), upd j = _
  congr 1
  rw [Finset.sum_filter, sum_idx2]
  refine Finset.sum_congr rfl fun r _ => ?_
  by_cases h : hit r
  · rw [if_pos h]
    have e : ∀ b : Fin D, (if d.resultIdx? (ix2 r b) idx = some (ix2 c f) then upd (ix2 r b) else 0)
        = if b = f then upd (ix2 r b) else 0 := fun b => by
      by_cases hb : b = f
      · rw [if_pos ((hchar r b).mpr ⟨h, hb⟩), if_pos hb]
      · rw [if_neg (fun hh => hb ((hchar r b).mp hh).2), if_neg hb]
    rw [Finset.sum_congr rfl fun b _ => e b, Finset.sum_ite_eq' Finset.univ f fun b => upd (ix2 r b), if_pos (Finset.mem_univ f)]
  · rw [if_neg h]
    exact Finset.sum_eq_zero fun b _ => if_neg fun hh => h ((hchar r b).mp hh).1

theorem scatter1_apply {N C w : ℕ} (d : ScatterDims ⟨1, ![C]⟩ ⟨2, ![N, 1]⟩ ⟨1, ![N]⟩)
    (x : (⟨1, ![C]⟩ : Shape).Idx → EReal) (idx : IVec ⟨2, ![N, 1]⟩ w) (upd : (⟨1, ![N]⟩ : Shape).Idx → EReal)
    (c : Fin C) (hit : Fin N → Prop) [DecidablePred hit]
    (hchar : ∀ r : Fin N, d.resultIdx? (ix1 r) idx = some (ix1 c) ↔ hit r) :
    Host.scatterAdd (F := Ideal) (φ := .f32) d x idx upd (ix1 c)
      = x (ix1 c) + ∑ r : Fin N, if hit r then upd (ix1 r) else 0 := by
  show x (ix1 c) + ∑ j ∈ Finset.univ.filter (fun j => d.resultIdx? j idx = some (ix1 c)), upd j = _
  congr 1
  rw [Finset.sum_filter, sum_idx1]
  refine Finset.sum_congr rfl fun r _ => ?_
  by_cases h : hit r
  · rw [if_pos h, if_pos ((hchar r).mpr h)]
  · rw [if_neg h, if_neg fun hh => h ((hchar r).mp hh)]

end Cert.ClassStats.Scatter
-- ==== Proof.LibRowGather.lean ====
import Idealize.ShloMosaic.PureOps.ShapeOps
import Idealize.ShloMosaic.Lib.ValueIdx

namespace Idealize.ShloMosaic.RowGather

open Idealize.ShloMosaic Idealize.ShloMosaic.ValueIdx

theorem ix2_val_zero {n0 n1 : Nat} (a : Fin n0) (b : Fin n1) (i : Fin 2) (hi : i.val = 0) : (ix2 a b i).val = a.val := by
  match i, hi with
  | ⟨0, _⟩, _ => rfl

theorem ix2_val_one {n0 n1 : Nat} (a : Fin n0) (b : Fin n1) (i : Fin 2) (hi : i.val = 1) : (ix2 a b i).val = b.val := by
  match i, hi with
  | ⟨1, _⟩, _ => rfl

def clampRow (N : Nat) (hN : 0 < N) {w : Nat} (i : BitVec w) : Fin N := ⟨min i.toInt.toNat (N - 1), by omega⟩

theorem gather_rows_apply {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (p : Fin n) (q : Fin D) (hN : 0 < N) :
    Host.gather d x idx (ix2 p q)
      = x (ix2 (clampRow N hN (idx (ix2 p (0 : Fin 1)))) q) := by
  unfold Host.gather clampRow
  congr 1
  funext a
  apply Fin.ext
  have hb : ∀ a : Fin 2, a ∉ d.operandBatchingDims := fun a => by rw [hob]; exact List.not_mem_nil

  have hbatch : ∀ a ∈ d.batchDims, a.val = 0 := by
    intro a ha
    have hna : a ∉ d.offsetDims := by
      have := (List.mem_filter.mp ha).2
      simpa using this
    rw [hoff] at hna
    have h2 : a.val < 2 := a.isLt
    by_contra hne
    exact hna (List.mem_singleton.mpr (Fin.ext (by show a.val = 1; omega)))
  have hoffs : ∀ a ∈ d.offsetDims, a.val = 1 := by
    intro a ha; rw [hoff] at ha; rw [List.mem_singleton.mp ha]; rfl
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = min _ (N - 1)
    rw [d.batchCoord_eq_zero _ _ (hb 0), d.offCoord_eq_zero _ _ hk]
    simp only [Nat.add_zero]
    unfold GatherDims.start
    rw [dif_pos hm]
    have hsi : d.siIdx (ix2 p q) ⟨d.startIndexMap.idxOf (0 : Fin 2), List.idxOf_lt_length_iff.2 hm⟩ = ix2 p (0 : Fin 1) := by
      funext b
      apply Fin.ext
      match b with
      | ⟨0, _⟩ =>
        unfold GatherDims.siIdx
        rw [dif_neg (by rw [hivd]; exact Nat.zero_ne_one)]
        unfold GatherDims.siCoord
        simp only [Fin.val_cast]
        exact ix2_val_zero p q _ (hbatch _ (List.getElem_mem _))
      | ⟨1, _⟩ =>
        unfold GatherDims.siIdx
        rw [dif_pos (by rw [hivd])]
        show List.idxOf (0 : Fin 2) d.startIndexMap = 0
        rw [hsim]; simp
    rw [hsi]
    show min (idx (ix2 p 0)).toInt.toNat (N - d.sliceSizes 0) = _
    rw [hsl]
  | ⟨1, _⟩ =>
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [d.batchCoord_eq_zero _ _ (hb 1)]
    simp only [Nat.add_zero]
    unfold GatherDims.start
    rw [dif_neg hm, Nat.zero_add]
    unfold GatherDims.offCoord
    rw [dif_pos hk]
    exact ix2_val_one p q _ (hoffs _ (List.getElem_mem _))

end Idealize.ShloMosaic.RowGather
-- ==== Proof.LibGraphOps.lean ====
import proofs.«428218_j42571715838145_2_alg».proof.Proof.LibScatterRows
import proofs.«428218_j42571715838145_2_alg».proof.Proof.LibRowGather
import proofs.«428218_j42571715838145_2_alg».proof.Proof.Spec
import Idealize.ShloMosaic.PureOps.Dims
import Idealize.ShloMosaic.PureOps.ShapeOps
import Idealize.ShloMosaic.PureOps.Ideal
import Idealize.ShloMosaic.Lib.ValueIdx

namespace Idealize.ShloMosaic.GraphOps

open Idealize.ShloMosaic Idealize.ShloMosaic.ValueIdx Idealize.ShloMosaic.RowGather

theorem ix1_val {n : Nat} (a : Fin n) (i : Fin 1) : (ix1 a i).val = a.val := by
  match i with
  | ⟨0, _⟩ => rfl

section rows
variable {C D N w : Nat} (d : ScatterDims ⟨2, ![C, D]⟩ ⟨2, ![N, 1]⟩ ⟨2, ![N, D]⟩)

theorem rows_uScatter (huw : d.updateWindowDims = [1]) : ∀ a ∈ d.uScatter, a.val = 0 := by
  intro a ha
  have hna : a ∉ d.updateWindowDims := by
    have := (List.mem_filter.mp ha).2
    simpa using this
  rw [huw] at hna
  have h2 : a.val < 2 := a.isLt
  by_contra hne
  exact hna (List.mem_singleton.mpr (Fin.ext (by show a.val = 1; omega)))

theorem rows_siIdx (huw : d.updateWindowDims = [1]) (hsd : d.scatterDimsToOperandDims = [0]) (hivd : d.indexVectorDim = 1)
    (r : Fin N) (b : Fin D) (k : Fin d.scatterDimsToOperandDims.length) :
    d.siIdx (ix2 r b) k = ix2 r (0 : Fin 1) := by
  funext a
  apply Fin.ext
  match a with
  | ⟨0, _⟩ =>
    unfold ScatterDims.siIdx
    rw [dif_neg (by rw [hivd]; exact Nat.zero_ne_one)]
    unfold ScatterDims.siCoord
    simp only [Fin.val_cast]
    exact ix2_val_zero r b _ (rows_uScatter d huw _ (List.getElem_mem _))
  | ⟨1, _⟩ =>
    unfold ScatterDims.siIdx
    rw [dif_pos (by rw [hivd])]
    have hl : d.scatterDimsToOperandDims.length = 1 := by rw [hsd]; rfl
    have hk : k.val < d.scatterDimsToOperandDims.length := k.isLt
    show k.val = 0
    omega

theorem rows_start_zero (huw : d.updateWindowDims = [1]) (hsd : d.scatterDimsToOperandDims = [0]) (hivd : d.indexVectorDim = 1)
    (idx : IVec ⟨2, ![N, 1]⟩ w) (r : Fin N) (b : Fin D) :
    d.start (ix2 r b) idx 0 = (idx (ix2 r (0 : Fin 1))).toInt := by
  have hm : (0 : Fin 2) ∈ d.scatterDimsToOperandDims := by rw [hsd]; exact List.mem_singleton.mpr rfl
  unfold ScatterDims.start
  rw [dif_pos hm, rows_siIdx d huw hsd hivd r b]

theorem rows_start_one (hsd : d.scatterDimsToOperandDims = [0]) (idx : IVec ⟨2, ![N, 1]⟩ w) (r : Fin N) (b : Fin D) :
    d.start (ix2 r b) idx 1 = 0 := by
  have hm : (1 : Fin 2) ∉ d.scatterDimsToOperandDims := by rw [hsd]; simp
  unfold ScatterDims.start
  rw [dif_neg hm]

theorem rows_window_zero (hiw : d.insertedWindowDims = [0]) (r : Fin N) (b : Fin D) : d.window (ix2 r b) 0 = 0 := by
  have hk : (0 : Fin 2) ∉ d.sKept := by
    intro h
    have := (List.mem_filter.mp h).2
    rw [hiw] at this
    simp at this
  unfold ScatterDims.window
  rw [dif_neg hk]

theorem rows_window_one (huw : d.updateWindowDims = [1]) (hiw : d.insertedWindowDims = [0]) (r : Fin N) (b : Fin D) :
    d.window (ix2 r b) 1 = b.val := by
  have hk : (1 : Fin 2) ∈ d.sKept := by
    refine List.mem_filter.mpr ⟨List.mem_finRange _, ?_⟩
    rw [hiw]; simp
  have hwin : ∀ a ∈ d.updateWindowDims, a.val = 1 := by
    intro a ha; rw [huw] at ha; rw [List.mem_singleton.mp ha]; rfl
  unfold ScatterDims.window
  rw [dif_pos hk]
  exact ix2_val_one r b _ (hwin _ (List.getElem_mem _))

end rows

theorem rows_hit {C D N w : Nat} (d : ScatterDims ⟨2, ![C, D]⟩ ⟨2, ![N, 1]⟩ ⟨2, ![N, D]⟩)
    (huw : d.updateWindowDims = [1]) (hiw : d.insertedWindowDims = [0]) (hsd : d.scatterDimsToOperandDims = [0])
    (hivd : d.indexVectorDim = 1)
    (idx : IVec ⟨2, ![N, 1]⟩ w) (r : Fin N) (b f : Fin D) (c : Fin C) :
    d.resultIdx? (ix2 r b) idx = some (ix2 c f) ↔ (idx (ix2 r (0 : Fin 1))).toInt = (c.val : ℤ) ∧ b = f := by
  have hs0 := rows_start_zero d huw hsd hivd idx r b
  have hs1 := rows_start_one d hsd idx r b
  have hw0 := rows_window_zero d hiw r b
  have hw1 := rows_window_one d huw hiw r b
  unfold ScatterDims.resultIdx?
  constructor
  · intro h
    split at h
    · rename_i hc
      have he := Option.some.inj h
      have e0 : (d.start (ix2 r b) idx 0 + (d.window (ix2 r b) 0 : ℤ)).toNat = c.val := congrArg (fun g => (g 0).val) he
      have e1 : (d.start (ix2 r b) idx 1 + (d.window (ix2 r b) 1 : ℤ)).toNat = f.val := congrArg (fun g => (g 1).val) he
      have c0 := (hc 0).1
      rw [hs0, hw0] at e0 c0
      rw [hs1, hw1] at e1
      exact ⟨by omega, Fin.ext (by omega)⟩
    · cases h
  · rintro ⟨hS, rfl⟩
    have hcl : c.val < C := c.isLt
    have hbl : b.val < D := b.isLt
    rw [dif_pos (by
      intro a
      match a with
      | ⟨0, _⟩ =>
        show 0 ≤ d.start (ix2 r b) idx 0 + (d.window (ix2 r b) 0 : ℤ) ∧ d.start (ix2 r b) idx 0 + (d.window (ix2 r b) 0 : ℤ) < (C : ℤ)
        rw [hs0, hw0, hS]; omega
      | ⟨1, _⟩ =>
        show 0 ≤ d.start (ix2 r b) idx 1 + (d.window (ix2 r b) 1 : ℤ) ∧ d.start (ix2 r b) idx 1 + (d.window (ix2 r b) 1 : ℤ) < (D : ℤ)
        rw [hs1, hw1]; omega)]
    congr 1
    funext a
    apply Fin.ext
    match a with
    | ⟨0, _⟩ =>
      show (d.start (ix2 r b) idx 0 + (d.window (ix2 r b) 0 : ℤ)).toNat = c.val
      rw [hs0, hw0, hS]; omega
    | ⟨1, _⟩ =>
      show (d.start (ix2 r b) idx 1 + (d.window (ix2 r b) 1 : ℤ)).toNat = b.val
      rw [hs1, hw1]; omega

section vec
variable {C N w : Nat} (d : ScatterDims ⟨1, ![C]⟩ ⟨2, ![N, 1]⟩ ⟨1, ![N]⟩)

theorem vec_siIdx (hsd : d.scatterDimsToOperandDims = [0]) (hivd : d.indexVectorDim = 1)
    (r : Fin N) (k : Fin d.scatterDimsToOperandDims.length) :
    d.siIdx (ix1 r) k = ix2 r (0 : Fin 1) := by
  funext a
  apply Fin.ext
  match a with
  | ⟨0, _⟩ =>
    unfold ScatterDims.siIdx
    rw [dif_neg (by rw [hivd]; exact Nat.zero_ne_one)]
    unfold ScatterDims.siCoord
    simp only [Fin.val_cast]
    exact ix1_val r _
  | ⟨1, _⟩ =>
    unfold ScatterDims.siIdx
    rw [dif_pos (by rw [hivd])]
    have hl : d.scatterDimsToOperandDims.length = 1 := by rw [hsd]; rfl
    have hk : k.val < d.scatterDimsToOperandDims.length := k.isLt
    show k.val = 0
    omega

theorem vec_start (hsd : d.scatterDimsToOperandDims = [0]) (hivd : d.indexVectorDim = 1)
    (idx : IVec ⟨2, ![N, 1]⟩ w) (r : Fin N) :
    d.start (ix1 r) idx 0 = (idx (ix2 r (0 : Fin 1))).toInt := by
  have hm : (0 : Fin 1) ∈ d.scatterDimsToOperandDims := by rw [hsd]; exact List.mem_singleton.mpr rfl
  unfold ScatterDims.start
  rw [dif_pos hm, vec_siIdx d hsd hivd r]

theorem vec_window (hiw : d.insertedWindowDims = [0]) (r : Fin N) : d.window (ix1 r) 0 = 0 := by
  have hk : (0 : Fin 1) ∉ d.sKept := by
    intro h
    have := (List.mem_filter.mp h).2
    rw [hiw] at this
    simp at this
  unfold ScatterDims.window
  rw [dif_neg hk]

end vec

theorem vec_hit {C N w : Nat} (d : ScatterDims ⟨1, ![C]⟩ ⟨2, ![N, 1]⟩ ⟨1, ![N]⟩)
    (huw : d.updateWindowDims = []) (hiw : d.insertedWindowDims = [0]) (hsd : d.scatterDimsToOperandDims = [0])
    (hivd : d.indexVectorDim = 1)
    (idx : IVec ⟨2, ![N, 1]⟩ w) (r : Fin N) (c : Fin C) :
    d.resultIdx? (ix1 r) idx = some (ix1 c) ↔ (idx (ix2 r (0 : Fin 1))).toInt = (c.val : ℤ) := by
  have _ := huw
  have hs0 := vec_start d hsd hivd idx r
  have hw0 := vec_window d hiw r
  unfold ScatterDims.resultIdx?
  constructor
  · intro h
    split at h
    · rename_i hc
      have he := Option.some.inj h
      have e0 : (d.start (ix1 r) idx 0 + (d.window (ix1 r) 0 : ℤ)).toNat = c.val := congrArg (fun g => (g 0).val) he
      have c0 := (hc 0).1
      rw [hs0, hw0] at e0 c0
      omega
    · cases h
  · intro hS
    have hcl : c.val < C := c.isLt
    rw [dif_pos (by
      intro a
      match a with
      | ⟨0, _⟩ =>
        show 0 ≤ d.start (ix1 r) idx 0 + (d.window (ix1 r) 0 : ℤ) ∧ d.start (ix1 r) idx 0 + (d.window (ix1 r) 0 : ℤ) < (C : ℤ)
        rw [hs0, hw0, hS]; omega)]
    congr 1
    funext a
    apply Fin.ext
    match a with
    | ⟨0, _⟩ =>
      show (d.start (ix1 r) idx 0 + (d.window (ix1 r) 0 : ℤ)).toNat = c.val
      rw [hs0, hw0, hS]; omega

theorem scatterAdd_rows_apply {C D N w : Nat} (d : ScatterDims ⟨2, ![C, D]⟩ ⟨2, ![N, 1]⟩ ⟨2, ![N, D]⟩)
    (huw : d.updateWindowDims = [1]) (hiw : d.insertedWindowDims = [0]) (hsd : d.scatterDimsToOperandDims = [0])
    (hivd : d.indexVectorDim = 1)
    (x : (⟨2, ![C, D]⟩ : Shape).Idx → EReal) (idx : IVec ⟨2, ![N, 1]⟩ w) (upd : (⟨2, ![N, D]⟩ : Shape).Idx → EReal)
    (c : Fin C) (f : Fin D) :
    Host.scatterAdd (F := Ideal) (φ := .f32) d x idx upd (ix2 c f)
      = x (ix2 c f) + ∑ r : Fin N, if (idx (ix2 r (0 : Fin 1))).toInt = (c.val : ℤ) then upd (ix2 r f) else 0 :=
  Cert.ClassStats.Scatter.scatter2_apply d x idx upd c f (fun r => (idx (ix2 r (0 : Fin 1))).toInt = (c.val : ℤ))
    (fun r b => rows_hit d huw hiw hsd hivd idx r b f c)

theorem scatterAdd_vec_apply {C N w : Nat} (d : ScatterDims ⟨1, ![C]⟩ ⟨2, ![N, 1]⟩ ⟨1, ![N]⟩)
    (huw : d.updateWindowDims = []) (hiw : d.insertedWindowDims = [0]) (hsd : d.scatterDimsToOperandDims = [0])
    (hivd : d.indexVectorDim = 1)
    (x : (⟨1, ![C]⟩ : Shape).Idx → EReal) (idx : IVec ⟨2, ![N, 1]⟩ w) (upd : (⟨1, ![N]⟩ : Shape).Idx → EReal)
    (c : Fin C) :
    Host.scatterAdd (F := Ideal) (φ := .f32) d x idx upd (ix1 c)
      = x (ix1 c) + ∑ r : Fin N, if (idx (ix2 r (0 : Fin 1))).toInt = (c.val : ℤ) then upd (ix1 r) else 0 :=
  Cert.ClassStats.Scatter.scatter1_apply d x idx upd c (fun r => (idx (ix2 r (0 : Fin 1))).toInt = (c.val : ℤ))
    (fun r => vec_hit d huw hiw hsd hivd idx r c)

theorem gather_vec_apply {α : Type} {N n w : Nat} (d : GatherDims ⟨1, ![N]⟩ ⟨2, ![n, 1]⟩ ⟨1, ![n]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (p : Fin n) (hN : 0 < N) :
    Host.gather d x idx (ix1 p) = x (ix1 (clampRow N hN (idx (ix2 p (0 : Fin 1))))) := by
  have _ := hoff
  unfold Host.gather clampRow
  congr 1
  funext a
  apply Fin.ext
  have hb : ∀ a : Fin 1, a ∉ d.operandBatchingDims := fun a => by rw [hob]; exact List.not_mem_nil
  match a with
  | ⟨0, _⟩ =>
    have hk : (0 : Fin 1) ∉ d.sKept := by rw [GatherDims.mem_sKept, hcoll]; simp
    have hm : (0 : Fin 1) ∈ d.startIndexMap := by rw [hsim]; exact List.mem_singleton.mpr rfl
    have hsl : d.sliceSizes 0 = 1 := d.slice_collapsed 0 (by rw [hcoll]; exact List.mem_singleton.mpr rfl)
    show d.start (ix1 p) idx 0 + d.batchCoord (ix1 p) 0 + d.offCoord (ix1 p) 0 = min _ (N - 1)
    rw [d.batchCoord_eq_zero _ _ (hb 0), d.offCoord_eq_zero _ _ hk]
    simp only [Nat.add_zero]
    unfold GatherDims.start
    rw [dif_pos hm]
    have hsi : d.siIdx (ix1 p) ⟨d.startIndexMap.idxOf (0 : Fin 1), List.idxOf_lt_length_iff.2 hm⟩ = ix2 p (0 : Fin 1) := by
      funext b
      apply Fin.ext
      match b with
      | ⟨0, _⟩ =>
        unfold GatherDims.siIdx
        rw [dif_neg (by rw [hivd]; exact Nat.zero_ne_one)]
        unfold GatherDims.siCoord
        simp only [Fin.val_cast]
        exact ix1_val p _
      | ⟨1, _⟩ =>
        unfold GatherDims.siIdx
        rw [dif_pos (by rw [hivd])]
        show List.idxOf (0 : Fin 1) d.startIndexMap = 0
        rw [hsim]; simp
    rw [hsi]
    show min (idx (ix2 p 0)).toInt.toNat (N - d.sliceSizes 0) = _
    rw [hsl]

theorem wrap_eq_nrm (w : BitVec 32) :
    Scalar.select (Scalar.cmpi .slt w 0#32) (w + 100000#32) w = Cert.Gcn.nrm w := by
  show (if BitVec.ofBool (w.slt 0#32) = 1 then w + 100000#32 else w) = if w.slt 0#32 then w + 100000#32 else w
  cases w.slt 0#32 <;> simp

theorem wrap_eq_nrm' (w : BitVec 32) :
    Scalar.select (IntOp.cmpi .slt w 0#32) (IntOp.addi w 100000#32) w = Cert.Gcn.nrm w := wrap_eq_nrm w

theorem clampRow_nrm (w : BitVec 32) :
    clampRow 100000 (by decide) (Cert.Gcn.nrm w) = Cert.Gcn.row w := Fin.ext rfl

theorem row_of_toInt_eq (w : BitVec 32) (c : Fin Cert.Gcn.NN) (h : w.toInt = (c.val : ℤ)) : Cert.Gcn.row w = c := by
  have hns : w.slt 0#32 = false := by
    have hlt : ¬ (w.toInt < (0#32 : BitVec 32).toInt) := by rw [h, BitVec.toInt_zero]; omega
    simpa [BitVec.slt] using hlt
  have hnrm : Cert.Gcn.nrm w = w := by unfold Cert.Gcn.nrm; rw [hns]; rfl
  have hcl : c.val < 100000 := c.isLt
  apply Fin.ext
  show min (Cert.Gcn.nrm w).toInt.toNat (100000 - 1) = c.val
  rw [hnrm, h]; omega

end Idealize.ShloMosaic.GraphOps
-- ==== Proof.KHost.lean ====
import proofs.«428218_j42571715838145_2_alg».proof.Proof.KernelIdealLaunch
import proofs.«428218_j42571715838145_2_alg».proof.Proof.Spec
import proofs.«428218_j42571715838145_2_alg».proof.Proof.LibScatterRows
import proofs.«428218_j42571715838145_2_alg».proof.Proof.LibRowGather
import proofs.«428218_j42571715838145_2_alg».proof.Proof.LibGraphOps
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.HandValue

open Cert.KernelIdeal Cert.KernelIdeal.Gen
open Idealize.ShloMosaic Idealize.ShloMosaic.TcCoe Idealize.ShloMosaic.ValueIdx
open Idealize.ShloMosaic.RowGather (clampRow)

section Layout
variable {α : Type}

theorem bcastScalar_apply {t : Shape} (h : S_.BroadcastsInDim t (![] : Fin 0 → Fin t.rank)) (x : S_.Idx → α) (j : t.Idx) :
    broadcastInDim t ![] h x j = x ix0 :=
  broadcastInDim_apply _ h x j ix0 fun a => a.elim0

theorem bcastCol_apply {n : ℕ} (h : (⟨1, ![n]⟩ : Shape).BroadcastsInDim ⟨2, ![n, 1]⟩ (![0] : Fin 1 → Fin 2))
    (x : (⟨1, ![n]⟩ : Shape).Idx → α) (r : Fin n) (u : Fin 1) :
    broadcastInDim ⟨2, ![n, 1]⟩ ![0] h x (ix2 r u) = x (ix1 r) :=
  broadcastInDim_apply _ h x _ (ix1 r) fun a => by
    match a with
    | ⟨0, _⟩ =>
      show r.val = if n = 1 then 0 else r.val
      split_ifs with h1
      · have := r.isLt; omega
      · rfl

theorem castCol_apply {n : ℕ} (h : (⟨1, ![n]⟩ : Shape).ShapeCasts ⟨2, ![n, 1]⟩)
    (x : (⟨1, ![n]⟩ : Shape).Idx → α) (p : Fin n) (u : Fin 1) :
    shapeCast ⟨2, ![n, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem hostRsqrt_apply {s : Shape} {φ : FTy} (x : FVec Ideal s φ) (i : s.Idx) : Host.rsqrt x i = Ideal.rsqrt (x i) := rfl

theorem cmpi_apply {s : Shape} {w : ℕ} (p : CmpIPredicate) (x y : IVec s w) (i : s.Idx) : cmpi p x y i = IntOp.cmpi p (x i) (y i) := rfl

theorem addi_apply {s : Shape} {w : ℕ} (x y : IVec s w) (i : s.Idx) : addi x y i = IntOp.addi (x i) (y i) := rfl

end Layout

section GraphOps

theorem scatterDeg_at (x : S100000.Idx → EReal) (idx : IVec S1600000x1 32) (upd : S1600000.Idx → EReal) (c : Fin 100000) :
    Host.scatterAdd (F := Ideal) (φ := .f32) scatter_S100000_S1600000x1_S1600000_n_0_0_1 x idx upd (ix1 c)
      = x (ix1 c) + ∑ r : Fin 1600000, if (idx (ix2 r (0 : Fin 1))).toInt = (c.val : ℤ) then upd (ix1 r) else 0 :=
  GraphOps.scatterAdd_vec_apply (C := 100000) (N := 1600000) scatter_S100000_S1600000x1_S1600000_n_0_0_1 rfl rfl rfl rfl x idx upd c

theorem scatterRows_at (x : S100000x128.Idx → EReal) (idx : IVec S1600000x1 32) (upd : S1600000x128.Idx → EReal)
    (c : Fin 100000) (f : Fin 128) :
    Host.scatterAdd (F := Ideal) (φ := .f32) scatter_S100000x128_S1600000x1_S1600000x128_1_0_0_1 x idx upd (ix2 c f)
      = x (ix2 c f) + ∑ r : Fin 1600000, if (idx (ix2 r (0 : Fin 1))).toInt = (c.val : ℤ) then upd (ix2 r f) else 0 :=
  GraphOps.scatterAdd_rows_apply (C := 100000) (D := 128) (N := 1600000) scatter_S100000x128_S1600000x1_S1600000x128_1_0_0_1
    rfl rfl rfl rfl x idx upd c f

theorem gatherRows_at {α : Type} (x : S100000x128.Idx → α) (idx : IVec S1600000x1 32) (p : Fin 1600000) (q : Fin 128) :
    Host.gather gather_S100000x128_S1600000x1_S1600000x128_1_0_n_n_0_1_1128 x idx (ix2 p q)
      = x (ix2 (clampRow 100000 (by decide) (idx (ix2 p (0 : Fin 1)))) q) :=
  RowGather.gather_rows_apply (N := 100000) (D := 128) (n := 1600000) gather_S100000x128_S1600000x1_S1600000x128_1_0_n_n_0_1_1128
    rfl rfl rfl rfl rfl x idx p q (by decide)

theorem wrap_eq_nrm (w : BitVec 32) :
    Scalar.select (IntOp.cmpi .slt w 0#32) (IntOp.addi w 100000#32) w = Cert.Gcn.nrm w :=
  GraphOps.wrap_eq_nrm' w

theorem clampRow_nrm (w : BitVec 32) : clampRow 100000 (by decide) (Cert.Gcn.nrm w) = Cert.Gcn.row w :=
  GraphOps.clampRow_nrm w

end GraphOps

theorem host0 (V : Valuation τ sig (Elt Ideal)) (dstf : Fin 1600000 → BitVec 32)
    (hdst : ∀ e, V main_arg2 (ix1 e) = dstf e) :
    (∀ p : Fin 100000, StableHlo.after hostOps0 V main_v6 (ix1 p) = Cert.Gcn.dinv dstf p)
      ∧ (∀ p : Fin 100000, StableHlo.after hostOps0 V main_v7 (ix2 p (0 : Fin 1)) = Cert.Gcn.dinv dstf p) := by
  have e6 : (StableHlo.after hostOps0 V (Proc.devRef .tc main_v6) : S100000.Idx → EReal)
      = Host.rsqrt (addf
          (Host.scatterAdd scatter_S100000_S1600000x1_S1600000_n_0_0_1
            (broadcastInDim S100000 ![] bcast_S_S100000 (constant (F := Ideal) S_ .f32 0x00000000#32))
            (broadcastInDim S1600000x1 ![0] bcast_S1600000_S1600000x1_0 (V (Proc.devRef .tc main_arg2)))
            (broadcastInDim S1600000 ![] bcast_S_S1600000 (constant (F := Ideal) S_ .f32 0x3F800000#32)))
          (broadcastInDim S100000 ![] bcast_S_S100000 (constant (F := Ideal) S_ .f32 0x3F800000#32))) := by
    simp only [hostOps0]; after_results
  have h6 : ∀ p : Fin 100000, StableHlo.after hostOps0 V main_v6 (ix1 p) = Cert.Gcn.dinv dstf p := by
    intro p
    rw [e6, hostRsqrt_apply, addf_apply, scatterDeg_at, bcastScalar_apply, bcastScalar_apply, constant_apply, constant_apply,
      Ideal.ofBits_zero_f32, Ideal.ofBits_one_f32, zero_add, Cert.Gcn.dinv, Cert.Gcn.deg]
    refine congrArg (fun s : EReal => Ideal.rsqrt (s + 1)) (Finset.sum_congr rfl fun e _ => ?_)
    rw [bcastCol_apply, hdst e, bcastScalar_apply, constant_apply, Ideal.ofBits_one_f32]
    exact if_congr Iff.rfl rfl rfl
  refine ⟨h6, fun p => ?_⟩
  have e7 : (StableHlo.after hostOps0 V (Proc.devRef .tc main_v7) : S100000x1.Idx → EReal)
      = shapeCast S100000x1 (StableHlo.after hostOps0 V (Proc.devRef .tc main_v6) : S100000.Idx → EReal) shapeCasts_S100000_S100000x1 := by
    rw [e6]; simp only [hostOps0]; after_results <;> rfl
  rw [e7, castCol_apply]
  exact h6 p

theorem agg1_term (V : Valuation τ sig (Elt Ideal)) :
    (StableHlo.after hostOps1 V (Proc.devRef .tc main_v19) : S100000x128.Idx → EReal)
      = Host.scatterAdd scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (V (Proc.devRef .tc main_arg2)))
          (extf .f32 (Host.gather gather_S100000x128_S1600000x1_S1600000x128_1_0_n_n_0_1_1128 (V (Proc.devRef .tc main_v8))
            (broadcastInDim S1600000x1 ![0] bcast_S1600000_S1600000x1_0
              (select (cmpi .slt (V (Proc.devRef .tc main_arg1)) (broadcastInDim S1600000 ![] bcast_S_S1600000 (constantI S_ 32 0#32)))
                (addi (V (Proc.devRef .tc main_arg1)) (broadcastInDim S1600000 ![] bcast_S_S1600000 (constantI S_ 32 100000#32)))
                (V (Proc.devRef .tc main_arg1))))) bitsLt_bf16_f32) := by
  simp only [hostOps1]; after_results <;> rfl

theorem dcol1_term (V : Valuation τ sig (Elt Ideal)) :
    (StableHlo.after hostOps1 V (Proc.devRef .tc main_v20) : S100000x1.Idx → EReal)
      = shapeCast S100000x1 (V (Proc.devRef .tc main_v6) : S100000.Idx → EReal) shapeCasts_S100000_S100000x1 := by
  simp only [hostOps1]; after_results <;> rfl

theorem brow1_term (V : Valuation τ sig (Elt Ideal)) :
    (StableHlo.after hostOps1 V (Proc.devRef .tc main_v21) : S1x128.Idx → EReal)
      = shapeCast S1x128 (V (Proc.devRef .tc main_arg5) : S128.Idx → EReal) shapeCasts_S128_S1x128 := by
  simp only [hostOps1]; after_results <;> rfl

theorem host1 (V : Valuation τ sig (Elt Ideal)) (srcf dstf : Fin 1600000 → BitVec 32)
    (T : Fin 100000 → Fin 128 → EReal) (df : Fin 100000 → EReal) (bf : Fin 128 → EReal)
    (hsrc : ∀ e, V main_arg1 (ix1 e) = srcf e) (hdst : ∀ e, V main_arg2 (ix1 e) = dstf e)
    (hT : ∀ p q, V main_v8 (ix2 p q) = T p q) (hd : ∀ p, V main_v6 (ix1 p) = df p) (hb : ∀ j, V main_arg5 (ix1 j) = bf j) :
    (∀ d j, StableHlo.after hostOps1 V main_v19 (ix2 d j) = Cert.Gcn.aggK srcf dstf T d j)
      ∧ (∀ p : Fin 100000, StableHlo.after hostOps1 V main_v20 (ix2 p (0 : Fin 1)) = df p)
      ∧ (∀ j : Fin 128, StableHlo.after hostOps1 V main_v21 (ix2 (0 : Fin 1) j) = bf j) := by
  refine ⟨fun d j => ?_, fun p => ?_, fun j => ?_⟩
  ·
    rw [agg1_term, scatterRows_at, bcastScalar_apply, constant_apply, Ideal.ofBits_zero_f32, zero_add, Cert.Gcn.aggK]
    show (_ : EReal) = _
    refine Finset.sum_congr rfl fun r _ => ?_
    rw [bcastCol_apply, hdst r, extf_apply, gatherRows_at, bcastCol_apply, select_apply, cmpi_apply, addi_apply,
      bcastScalar_apply, bcastScalar_apply, constantI_apply, constantI_apply, hsrc r, wrap_eq_nrm, clampRow_nrm, hT]
    exact if_congr Iff.rfl rfl rfl
  · rw [dcol1_term, castCol_apply, hd p]
  · rw [brow1_term, shapeCast_a_1a_apply, hb j]

theorem agg2_term (V : Valuation τ sig (Elt Ideal)) :
    (StableHlo.after hostOps2 V (Proc.devRef .tc main_v33) : S100000x128.Idx → EReal)
      = Host.scatterAdd scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (V (Proc.devRef .tc main_arg2)))
          (extf .f32 (Host.gather gather_S100000x128_S1600000x1_S1600000x128_1_0_n_n_0_1_1128 (V (Proc.devRef .tc main_v22))
            (broadcastInDim S1600000x1 ![0] bcast_S1600000_S1600000x1_0
              (select (cmpi .slt (V (Proc.devRef .tc main_arg1)) (broadcastInDim S1600000 ![] bcast_S_S1600000 (constantI S_ 32 0#32)))
                (addi (V (Proc.devRef .tc main_arg1)) (broadcastInDim S1600000 ![] bcast_S_S1600000 (constantI S_ 32 100000#32)))
                (V (Proc.devRef .tc main_arg1))))) bitsLt_bf16_f32) := by
  simp only [hostOps2]; after_results <;> rfl

theorem dcol2_term (V : Valuation τ sig (Elt Ideal)) :
    (StableHlo.after hostOps2 V (Proc.devRef .tc main_v34) : S100000x1.Idx → EReal)
      = shapeCast S100000x1 (V (Proc.devRef .tc main_v6) : S100000.Idx → EReal) shapeCasts_S100000_S100000x1 := by
  simp only [hostOps2]; after_results <;> rfl

theorem brow2_term (V : Valuation τ sig (Elt Ideal)) :
    (StableHlo.after hostOps2 V (Proc.devRef .tc main_v35) : S1x128.Idx → EReal)
      = shapeCast S1x128 (V (Proc.devRef .tc main_arg7) : S128.Idx → EReal) shapeCasts_S128_S1x128 := by
  simp only [hostOps2]; after_results <;> rfl

theorem host2 (V : Valuation τ sig (Elt Ideal)) (srcf dstf : Fin 1600000 → BitVec 32)
    (T : Fin 100000 → Fin 128 → EReal) (df : Fin 100000 → EReal) (bf : Fin 128 → EReal)
    (hsrc : ∀ e, V main_arg1 (ix1 e) = srcf e) (hdst : ∀ e, V main_arg2 (ix1 e) = dstf e)
    (hT : ∀ p q, V main_v22 (ix2 p q) = T p q) (hd : ∀ p, V main_v6 (ix1 p) = df p) (hb : ∀ j, V main_arg7 (ix1 j) = bf j) :
    (∀ d j, StableHlo.after hostOps2 V main_v33 (ix2 d j) = Cert.Gcn.aggK srcf dstf T d j)
      ∧ (∀ p : Fin 100000, StableHlo.after hostOps2 V main_v34 (ix2 p (0 : Fin 1)) = df p)
      ∧ (∀ j : Fin 128, StableHlo.after hostOps2 V main_v35 (ix2 (0 : Fin 1) j) = bf j) := by
  refine ⟨fun d j => ?_, fun p => ?_, fun j => ?_⟩
  ·
    rw [agg2_term, scatterRows_at, bcastScalar_apply, constant_apply, Ideal.ofBits_zero_f32, zero_add, Cert.Gcn.aggK]
    show (_ : EReal) = _
    refine Finset.sum_congr rfl fun r _ => ?_
    rw [bcastCol_apply, hdst r, extf_apply, gatherRows_at, bcastCol_apply, select_apply, cmpi_apply, addi_apply,
      bcastScalar_apply, bcastScalar_apply, constantI_apply, constantI_apply, hsrc r, wrap_eq_nrm, clampRow_nrm, hT]
    exact if_congr Iff.rfl rfl rfl
  · rw [dcol2_term, castCol_apply, hd p]
  · rw [brow2_term, shapeCast_a_1a_apply, hb j]

theorem agg3_term (V : Valuation τ sig (Elt Ideal)) :
    (StableHlo.after hostOps3 V (Proc.devRef .tc main_v47) : S100000x128.Idx → EReal)
      = Host.scatterAdd scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (V (Proc.devRef .tc main_arg2)))
          (extf .f32 (Host.gather gather_S100000x128_S1600000x1_S1600000x128_1_0_n_n_0_1_1128 (V (Proc.devRef .tc main_v36))
            (broadcastInDim S1600000x1 ![0] bcast_S1600000_S1600000x1_0
              (select (cmpi .slt (V (Proc.devRef .tc main_arg1)) (broadcastInDim S1600000 ![] bcast_S_S1600000 (constantI S_ 32 0#32)))
                (addi (V (Proc.devRef .tc main_arg1)) (broadcastInDim S1600000 ![] bcast_S_S1600000 (constantI S_ 32 100000#32)))
                (V (Proc.devRef .tc main_arg1))))) bitsLt_bf16_f32) := by
  simp only [hostOps3]; after_results_simp

theorem dcol3_term (V : Valuation τ sig (Elt Ideal)) :
    (StableHlo.after hostOps3 V (Proc.devRef .tc main_v49) : S100000x1.Idx → EReal)
      = shapeCast S100000x1 (V (Proc.devRef .tc main_v6) : S100000.Idx → EReal) shapeCasts_S100000_S100000x1 := by
  simp only [hostOps3]; after_results <;> rfl

theorem brow3_term (V : Valuation τ sig (Elt Ideal)) :
    (StableHlo.after hostOps3 V (Proc.devRef .tc main_v50) : S1x128.Idx → EReal)
      = shapeCast S1x128 (V (Proc.devRef .tc main_arg9) : S128.Idx → EReal) shapeCasts_S128_S1x128 := by
  simp only [hostOps3]; after_results <;> rfl

theorem bat3_term (V : Valuation τ sig (Elt Ideal)) :
    (StableHlo.after hostOps3 V (Proc.devRef .tc main_v48) : IVec S100000x1 32)
      = shapeCast S100000x1 (V (Proc.devRef .tc main_arg3) : IVec S100000 32) shapeCasts_S100000_S100000x1 := by
  simp only [hostOps3]; after_results <;> rfl

theorem bl3_term (V : Valuation τ sig (Elt Ideal)) :
    (StableHlo.after hostOps3 V (Proc.devRef .tc main_v51) : S1x1.Idx → EReal)
      = shapeCast S1x1 (V (Proc.devRef .tc main_arg11) : S1.Idx → EReal) shapeCasts_S1_S1x1 := by
  simp only [hostOps3]; after_results <;> rfl

theorem host3 (V : Valuation τ sig (Elt Ideal)) (srcf dstf : Fin 1600000 → BitVec 32)
    (T : Fin 100000 → Fin 128 → EReal) (df : Fin 100000 → EReal) (bf : Fin 128 → EReal)
    (batchf : Fin 100000 → BitVec 32) (blf : Fin 1 → EReal)
    (hsrc : ∀ e, V main_arg1 (ix1 e) = srcf e) (hdst : ∀ e, V main_arg2 (ix1 e) = dstf e)
    (hT : ∀ p q, V main_v36 (ix2 p q) = T p q) (hd : ∀ p, V main_v6 (ix1 p) = df p) (hb : ∀ j, V main_arg9 (ix1 j) = bf j)
    (hbat : ∀ p, V main_arg3 (ix1 p) = batchf p) (hbl : ∀ o, V main_arg11 (ix1 o) = blf o) :
    (∀ d j, StableHlo.after hostOps3 V main_v47 (ix2 d j) = Cert.Gcn.aggK srcf dstf T d j)
      ∧ (∀ p : Fin 100000, StableHlo.after hostOps3 V main_v48 (ix2 p (0 : Fin 1)) = batchf p)
      ∧ (∀ p : Fin 100000, StableHlo.after hostOps3 V main_v49 (ix2 p (0 : Fin 1)) = df p)
      ∧ (∀ j : Fin 128, StableHlo.after hostOps3 V main_v50 (ix2 (0 : Fin 1) j) = bf j)
      ∧ (∀ o : Fin 1, StableHlo.after hostOps3 V main_v51 (ix2 (0 : Fin 1) o) = blf o) := by
  refine ⟨fun d j => ?_, fun p => ?_, fun p => ?_, fun j => ?_, fun o => ?_⟩
  ·
    rw [agg3_term, scatterRows_at, bcastScalar_apply, constant_apply, Ideal.ofBits_zero_f32, zero_add, Cert.Gcn.aggK]
    show (_ : EReal) = _
    refine Finset.sum_congr rfl fun r _ => ?_
    rw [bcastCol_apply, hdst r, extf_apply, gatherRows_at, bcastCol_apply, select_apply, cmpi_apply, addi_apply,
      bcastScalar_apply, bcastScalar_apply, constantI_apply, constantI_apply, hsrc r, wrap_eq_nrm, clampRow_nrm, hT]
    exact if_congr Iff.rfl rfl rfl
  · rw [bat3_term, castCol_apply, hbat p]
  · rw [dcol3_term, castCol_apply, hd p]
  · rw [brow3_term, shapeCast_a_1a_apply, hb j]
  · rw [bl3_term, shapeCast_a_1a_apply, hbl o]

end Cert.KernelIdeal.HandValue

end
-- ==== Proof.KValue.lean ====
import proofs.«428218_j42571715838145_2_alg».proof.Proof.Run
import proofs.«428218_j42571715838145_2_alg».proof.Proof.Val0
import proofs.«428218_j42571715838145_2_alg».proof.Proof.Val1
import proofs.«428218_j42571715838145_2_alg».proof.Proof.Val2
import proofs.«428218_j42571715838145_2_alg».proof.Proof.Val3
import proofs.«428218_j42571715838145_2_alg».proof.Proof.KHost
import proofs.«428218_j42571715838145_2_alg».proof.Proof.Spec

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Cert.Gcn

variable (m : (ℓ : Loc nD τ sig) → Buf (Elt Ideal) ℓ) (ρ : Dev nD → PrngReg) (c : Dev nD)

abbrev xA : Fin 100000 → Fin 64 → EReal := fun p k => m ((c.tc : Thread nD τ).loc main_arg0) (ix2 p k)
abbrev srcA : Fin 1600000 → BitVec 32 := fun e => m ((c.tc : Thread nD τ).loc main_arg1) (ix1 e)
abbrev dstA : Fin 1600000 → BitVec 32 := fun e => m ((c.tc : Thread nD τ).loc main_arg2) (ix1 e)
abbrev batchA : Fin 100000 → BitVec 32 := fun i => m ((c.tc : Thread nD τ).loc main_arg3) (ix1 i)
abbrev W1A : Fin 64 → Fin 128 → EReal := fun k q => m ((c.tc : Thread nD τ).loc main_arg4) (ix2 k q)
abbrev b1A : Fin 128 → EReal := fun j => m ((c.tc : Thread nD τ).loc main_arg5) (ix1 j)
abbrev W2A : Fin 128 → Fin 128 → EReal := fun k q => m ((c.tc : Thread nD τ).loc main_arg6) (ix2 k q)
abbrev b2A : Fin 128 → EReal := fun j => m ((c.tc : Thread nD τ).loc main_arg7) (ix1 j)
abbrev W3A : Fin 128 → Fin 128 → EReal := fun k q => m ((c.tc : Thread nD τ).loc main_arg8) (ix2 k q)
abbrev b3A : Fin 128 → EReal := fun j => m ((c.tc : Thread nD τ).loc main_arg9) (ix1 j)
abbrev WlA : Fin 128 → Fin 1 → EReal := fun k o => m ((c.tc : Thread nD τ).loc main_arg10) (ix2 k o)
abbrev blA : Fin 1 → EReal := fun o => m ((c.tc : Thread nD τ).loc main_arg11) (ix1 o)

theorem arg_at (b : Ref sig .tc) (h0 : b ∉ hostOps0_W) (h1 : b ∉ hostOps1_W) (h2 : b ∉ hostOps2_W)
    (o0 : b ≠ main_v8) (o1 : b ≠ main_v22) (o2 : b ≠ main_v36) :
    W1 m ρ c (Proc.devRef .tc b) = m ((c : Thread nD τ).loc b) ∧ W2 m ρ c (Proc.devRef .tc b) = m ((c : Thread nD τ).loc b)
    ∧ W3 m ρ c (Proc.devRef .tc b) = m ((c : Thread nD τ).loc b) ∧ W4 m ρ c (Proc.devRef .tc b) = m ((c : Thread nD τ).loc b)
    ∧ W5 m ρ c (Proc.devRef .tc b) = m ((c : Thread nD τ).loc b) ∧ W6 m ρ c (Proc.devRef .tc b) = m ((c : Thread nD τ).loc b) := by
  have e1 := (W1_keep m ρ c b h0).trans (rfl : W0 m ρ c (Proc.devRef .tc b) = m ((c : Thread nD τ).loc b))
  have e2 := (W2_keep m ρ c b o0).trans e1
  have e3 := (W3_keep m ρ c b h1).trans e2
  have e4 := (W4_keep m ρ c b o1).trans e3
  have e5 := (W5_keep m ρ c b h2).trans e4
  have e6 := (W6_keep m ρ c b o2).trans e5
  exact ⟨e1, e2, e3, e4, e5, e6⟩

theorem dinv_at :
    (∀ p : Fin 100000, W2 m ρ c main_v6 (ix1 p) = dinv (dstA m c) p) ∧ (∀ p : Fin 100000, W4 m ρ c main_v6 (ix1 p) = dinv (dstA m c) p)
    ∧ (∀ p : Fin 100000, W6 m ρ c main_v6 (ix1 p) = dinv (dstA m c) p) ∧ (∀ p : Fin 100000, W1 m ρ c main_v7 (ix2 p (0 : Fin 1)) = dinv (dstA m c) p) := by
  obtain ⟨h6, h7⟩ := host0 (W0 m ρ c) (dstA m c) (fun e => rfl)
  have e2 : W2 m ρ c main_v6 = W1 m ρ c main_v6 := W2_keep m ρ c main_v6 (by decide)
  have e3 : W3 m ρ c main_v6 = W2 m ρ c main_v6 := W3_keep m ρ c main_v6 (by decide)
  have e4 : W4 m ρ c main_v6 = W3 m ρ c main_v6 := W4_keep m ρ c main_v6 (by decide)
  have e5 : W5 m ρ c main_v6 = W4 m ρ c main_v6 := W5_keep m ρ c main_v6 (by decide)
  have e6 : W6 m ρ c main_v6 = W5 m ρ c main_v6 := W6_keep m ρ c main_v6 (by decide)
  refine ⟨fun p => ?_, fun p => ?_, fun p => ?_, h7⟩
  · rw [e2]; exact h6 p
  · rw [e4, e3, e2]; exact h6 p
  · rw [e6, e5, e4, e3, e2]; exact h6 p

theorem hs1_at : ∀ (p : Fin 100000) (q : Fin 128), W2 m ρ c main_v8 (ix2 p q) = hs1K (dstA m c) (xA m c) (W1A m c) p q := by
  obtain ⟨-, -, -, h7⟩ := dinv_at m ρ c
  have a0 := (arg_at m ρ c main_arg0 (by decide) (by decide) (by decide) (by decide) (by decide) (by decide)).1
  have a4 := (arg_at m ρ c main_arg4 (by decide) (by decide) (by decide) (by decide) (by decide) (by decide)).1
  have f := final0 (VV1 m ρ) c (xA m c) (W1A m c) (dinv (dstA m c)) (fun p k => congrFun a0 (ix2 p k)) (fun k q => congrFun a4 (ix2 k q)) h7
  intro p q
  exact (congrFun (W2_arr m ρ c 3) (ix2 p q)).trans (f p q)

theorem hs2_at : ∀ (p : Fin 100000) (q : Fin 128), W4 m ρ c main_v22 (ix2 p q) = hs2K (srcA m c) (dstA m c) (xA m c) (W1A m c) (b1A m c) (W2A m c) p q := by
  obtain ⟨hd2, -, -, -⟩ := dinv_at m ρ c
  have a1 := (arg_at m ρ c main_arg1 (by decide) (by decide) (by decide) (by decide) (by decide) (by decide)).2.1
  have a2 := (arg_at m ρ c main_arg2 (by decide) (by decide) (by decide) (by decide) (by decide) (by decide)).2.1
  have a5 := (arg_at m ρ c main_arg5 (by decide) (by decide) (by decide) (by decide) (by decide) (by decide)).2.1
  have a6 := (arg_at m ρ c main_arg6 (by decide) (by decide) (by decide) (by decide) (by decide) (by decide)).2.2.1
  obtain ⟨hagg, hdc, hbc⟩ := host1 (W2 m ρ c) (srcA m c) (dstA m c) (hs1K (dstA m c) (xA m c) (W1A m c)) (dinv (dstA m c)) (b1A m c)
    (fun e => congrFun a1 (ix1 e)) (fun e => congrFun a2 (ix1 e)) (hs1_at m ρ c) hd2 (fun j => congrFun a5 (ix1 j))
  have h8 : ∀ p k, VV3 m ρ c main_v8 (ix2 p k) = hs1K (dstA m c) (xA m c) (W1A m c) p k := fun p k =>
    (congrFun (W3_keep m ρ c main_v8 (by decide)) (ix2 p k)).trans (hs1_at m ρ c p k)
  have f := final1 (VV3 m ρ) c _ _ _ _ (W2A m c) hagg h8 hdc hbc (fun k q => congrFun a6 (ix2 k q))
  intro p q
  exact (congrFun (W4_arr m ρ c 5) (ix2 p q)).trans (f p q)

theorem hs3_at : ∀ (p : Fin 100000) (q : Fin 128), W6 m ρ c main_v36 (ix2 p q)
    = hs3K (srcA m c) (dstA m c) (xA m c) (W1A m c) (b1A m c) (W2A m c) (b2A m c) (W3A m c) p q := by
  obtain ⟨-, hd4, -, -⟩ := dinv_at m ρ c
  have a1 := (arg_at m ρ c main_arg1 (by decide) (by decide) (by decide) (by decide) (by decide) (by decide)).2.2.2.1
  have a2 := (arg_at m ρ c main_arg2 (by decide) (by decide) (by decide) (by decide) (by decide) (by decide)).2.2.2.1
  have a7 := (arg_at m ρ c main_arg7 (by decide) (by decide) (by decide) (by decide) (by decide) (by decide)).2.2.2.1
  have a8 := (arg_at m ρ c main_arg8 (by decide) (by decide) (by decide) (by decide) (by decide) (by decide)).2.2.2.2.1
  obtain ⟨hagg, hdc, hbc⟩ := host2 (W4 m ρ c) (srcA m c) (dstA m c) (hs2K (srcA m c) (dstA m c) (xA m c) (W1A m c) (b1A m c) (W2A m c)) (dinv (dstA m c)) (b2A m c)
    (fun e => congrFun a1 (ix1 e)) (fun e => congrFun a2 (ix1 e)) (hs2_at m ρ c) hd4 (fun j => congrFun a7 (ix1 j))
  have h22 : ∀ p k, VV5 m ρ c main_v22 (ix2 p k) = hs2K (srcA m c) (dstA m c) (xA m c) (W1A m c) (b1A m c) (W2A m c) p k := fun p k =>
    (congrFun (W5_keep m ρ c main_v22 (by decide)) (ix2 p k)).trans (hs2_at m ρ c p k)
  have f := final2 (VV5 m ρ) c _ _ _ _ (W3A m c) hagg h22 hdc hbc (fun k q => congrFun a8 (ix2 k q))
  intro p q
  exact (congrFun (W6_arr m ρ c 5) (ix2 p q)).trans (f p q)

theorem result_eq : ∀ (g : Fin 1000) (o : Fin 1), (dat3 (F := Ideal) (VV7 m ρ) c).arrAt 7 cfg3.N (ix2 g o)
    = outK (srcA m c) (dstA m c) (batchA m c) (xA m c) (W1A m c) (b1A m c) (W2A m c) (b2A m c) (W3A m c) (b3A m c) (WlA m c) (blA m c) g o := by
  obtain ⟨-, -, hd6, -⟩ := dinv_at m ρ c
  have a1 := (arg_at m ρ c main_arg1 (by decide) (by decide) (by decide) (by decide) (by decide) (by decide)).2.2.2.2.2
  have a2 := (arg_at m ρ c main_arg2 (by decide) (by decide) (by decide) (by decide) (by decide) (by decide)).2.2.2.2.2
  have a3 := (arg_at m ρ c main_arg3 (by decide) (by decide) (by decide) (by decide) (by decide) (by decide)).2.2.2.2.2
  have a9 := (arg_at m ρ c main_arg9 (by decide) (by decide) (by decide) (by decide) (by decide) (by decide)).2.2.2.2.2
  have a10 := (arg_at m ρ c main_arg10 (by decide) (by decide) (by decide) (by decide) (by decide) (by decide)).2.2.2.2.2
  have a11 := (arg_at m ρ c main_arg11 (by decide) (by decide) (by decide) (by decide) (by decide) (by decide)).2.2.2.2.2
  obtain ⟨hagg, hbat, hdc, hbc, hblc⟩ := host3 (W6 m ρ c) (srcA m c) (dstA m c)
    (hs3K (srcA m c) (dstA m c) (xA m c) (W1A m c) (b1A m c) (W2A m c) (b2A m c) (W3A m c)) (dinv (dstA m c)) (b3A m c) (batchA m c) (blA m c)
    (fun e => congrFun a1 (ix1 e)) (fun e => congrFun a2 (ix1 e)) (hs3_at m ρ c) hd6 (fun j => congrFun a9 (ix1 j))
    (fun p => congrFun a3 (ix1 p)) (fun o => congrFun a11 (ix1 o))
  have h36 : ∀ p k, VV7 m ρ c main_v36 (ix2 p k) = hs3K (srcA m c) (dstA m c) (xA m c) (W1A m c) (b1A m c) (W2A m c) (b2A m c) (W3A m c) p k := fun p k =>
    (congrFun (W7_keep m ρ c main_v36 (by decide)) (ix2 p k)).trans (hs3_at m ρ c p k)
  have h10 : ∀ k o, VV7 m ρ c main_arg10 (ix2 k o) = WlA m c k o := fun k o =>
    (congrFun ((W7_keep m ρ c main_arg10 (by decide)).trans a10) (ix2 k o))
  exact final3 (VV7 m ρ) c _ _ _ _ (batchA m c) (WlA m c) (blA m c) hagg h36 hdc hbc hbat h10 hblc

end Cert.KernelIdeal.HandValue

end
-- ==== Proof.RefPool.lean ====
import proofs.«428218_j42571715838145_2_alg».proof.Proof.Gen.ReferenceIdeal.Read
import proofs.«428218_j42571715838145_2_alg».proof.Proof.Spec
import proofs.«428218_j42571715838145_2_alg».proof.Proof.LibScatterRows
import proofs.«428218_j42571715838145_2_alg».proof.Proof.LibGraphOps

noncomputable section

namespace Cert.ReferenceIdeal.RefValue

open Cert.ReferenceIdeal Cert.ReferenceIdeal.Gen Cert.ReferenceIdeal.Read Idealize.ShloMosaic Idealize.ShloMosaic.ValueIdx
open Cert.ClassStats.Scatter

theorem ofBits_one_f32 : Ideal.ofBits .f32 0x3F800000#32 = 1 := by
  simp [Ideal.ofBits, Ideal.ieee, -EReal.coe_mul]; norm_num

theorem hit_rows (idx : IVec S100000x1 32) (c : Fin 1000) (f : Fin 128) (r : Fin 100000) (b : Fin 128) :
    scatter_S1000x128_S100000x1_S100000x128_1_0_0_1.resultIdx? (ix2 r b) idx = some (ix2 c f)
      ↔ (idx (ix2 r 0)).toInt = (c.val : ℤ) ∧ b = f :=
  Idealize.ShloMosaic.GraphOps.rows_hit _ rfl rfl rfl rfl idx r b f c

theorem hit_ones (idx : IVec S100000x1 32) (c : Fin 1000) (r : Fin 100000) :
    scatter_S1000_S100000x1_S100000_n_0_0_1.resultIdx? (ix1 r) idx = some (ix1 c)
      ↔ (idx (ix2 r 0)).toInt = (c.val : ℤ) :=
  Idealize.ShloMosaic.GraphOps.vec_hit _ rfl rfl rfl rfl idx r c

variable (x0 : (⟨S100000x64, .f32⟩ : BufTy).Contents (Elt Ideal)) (x1 x2 : (⟨S1600000, .i32⟩ : BufTy).Contents (Elt Ideal))
  (x3 : (⟨S100000, .i32⟩ : BufTy).Contents (Elt Ideal)) (x4 : (⟨S64x128, .f32⟩ : BufTy).Contents (Elt Ideal))
  (x5 : (⟨S128, .f32⟩ : BufTy).Contents (Elt Ideal)) (x6 : (⟨S128x128, .f32⟩ : BufTy).Contents (Elt Ideal))
  (x7 : (⟨S128, .f32⟩ : BufTy).Contents (Elt Ideal)) (x8 : (⟨S128x128, .f32⟩ : BufTy).Contents (Elt Ideal))
  (x9 : (⟨S128, .f32⟩ : BufTy).Contents (Elt Ideal)) (x10 : (⟨S128x1, .f32⟩ : BufTy).Contents (Elt Ideal))
  (x11 : (⟨S1, .f32⟩ : BufTy).Contents (Elt Ideal))

theorem cnt_eq (g : Fin 1000) :
    val_main_v140 (F := Ideal) x3 (ix1 g) = Cert.Gcn.poolCnt (fun i => x3 (ix1 i)) g := by
  have hchar : ∀ r : Fin 100000, scatter_S1000_S100000x1_S100000_n_0_0_1.resultIdx? (ix1 r) (val_main_v139 (F := Ideal) x3) = some (ix1 g)
      ↔ Cert.Gcn.inGraph (fun i => x3 (ix1 i)) r g := fun r => by
    have e : idx_main_v139 (ix2 r (0 : Fin 1)) = ix1 r := funext fun a => by match a with | ⟨0, _⟩ => rfl
    rw [hit_ones, val_main_v139_apply, e]
    rfl
  unfold val_main_v140
  rw [scatter1_apply _ _ _ _ g (fun r => Cert.Gcn.inGraph (fun i => x3 (ix1 i)) r g) hchar]
  simp only [val_main_v138_apply, val_main_cst_30_apply, val_main_v137_apply, val_main_cst_29_apply, Ideal.ofBits_def,
    Ideal.ofBits_zero_f32, ofBits_one_f32, zero_add]
  rfl

theorem sum_eq (hf : Fin 100000 → Fin 128 → EReal)
    (hh : ∀ i k, val_main_v133 (F := Ideal) x0 x1 x2 x4 x5 x6 x7 x8 x9 (ix2 i k) = hf i k) (g : Fin 1000) (k : Fin 128) :
    val_main_v136 (F := Ideal) x0 x1 x2 x3 x4 x5 x6 x7 x8 x9 (ix2 g k) = Cert.Gcn.poolSum (fun i => x3 (ix1 i)) hf g k := by
  have hchar : ∀ (r : Fin 100000) (b : Fin 128),
      scatter_S1000x128_S100000x1_S100000x128_1_0_0_1.resultIdx? (ix2 r b) (val_main_v135 (F := Ideal) x3) = some (ix2 g k)
      ↔ Cert.Gcn.inGraph (fun i => x3 (ix1 i)) r g ∧ b = k := fun r b => by
    have e : idx_main_v135 (ix2 r (0 : Fin 1)) = ix1 r := funext fun a => by match a with | ⟨0, _⟩ => rfl
    rw [hit_rows, val_main_v135_apply, e]
    rfl
  unfold val_main_v136
  rw [scatter2_apply _ _ _ _ g k (fun r => Cert.Gcn.inGraph (fun i => x3 (ix1 i)) r g) hchar]
  simp only [val_main_v134_apply, val_main_cst_28_apply, Ideal.ofBits_def, Ideal.ofBits_zero_f32, zero_add, hh]
  rfl

theorem pool_eq (hf : Fin 100000 → Fin 128 → EReal)
    (hh : ∀ i k, val_main_v133 (F := Ideal) x0 x1 x2 x4 x5 x6 x7 x8 x9 (ix2 i k) = hf i k) :
    ∀ (g : Fin 1000) (o : Fin 1), val_main_v149 (F := Ideal) x0 x1 x2 x3 x4 x5 x6 x7 x8 x9 x10 x11 (ix2 g o)
      = Cert.Gcn.readout (fun i => x3 (ix1 i)) hf (fun k o => x10 (ix2 k o)) (fun o => x11 (ix1 o)) g o := by
  intro g o
  rw [val_main_v149_apply, val_main_v146_apply, Ideal.addf_def]
  unfold Cert.Gcn.readout
  refine congrArg₂ (· + ·) ?_ ?_
  · refine Finset.sum_congr rfl fun k _ => ?_
    have el : lidx_main_v146 (ix2 g o) k = ix2 g k := funext fun a => by
      match a with
      | ⟨0, _⟩ => rfl
      | ⟨1, _⟩ => rfl
    have er : ridx_main_v146 (ix2 g o) k = ix2 k o := funext fun a => by
      match a with
      | ⟨0, _⟩ => rfl
      | ⟨1, _⟩ => rfl
    have ec : idx_main_v143 (idx_main_v144 (ix2 g k)) = ix1 g := funext fun a => by match a with | ⟨0, _⟩ => rfl
    rw [el, er, val_main_v145_apply, Ideal.hostDivf_def, sum_eq x0 x1 x2 x3 x4 x5 x6 x7 x8 x9 hf hh g k, val_main_v144_apply,
      val_main_v143_apply, ec, val_main_v142_apply, Ideal.maximumf_def, cnt_eq x3 g, val_main_v141_apply, val_main_cst_31_apply,
      Ideal.ofBits_def, ofBits_one_f32]
  · have eb : idx_main_v147 (idx_main_v148 (ix2 g o)) = ix1 o := funext fun a => by
      match a with
      | ⟨0, _⟩ => exact Fin.ext (show (0 : ℕ) = o.val by have := o.isLt; omega)
    rw [val_main_v148_apply, val_main_v147_apply, eb]

end Cert.ReferenceIdeal.RefValue

end
-- ==== Proof.RefLayers.lean ====
import proofs.«428218_j42571715838145_2_alg».proof.Proof.Gen.ReferenceIdeal.Read
import proofs.«428218_j42571715838145_2_alg».proof.Proof.Spec
import proofs.«428218_j42571715838145_2_alg».proof.Proof.LibScatterRows
import proofs.«428218_j42571715838145_2_alg».proof.Proof.LibRowGather
import proofs.«428218_j42571715838145_2_alg».proof.Proof.LibGraphOps

noncomputable section

namespace Cert.ReferenceIdeal.RefValue

open Cert.ReferenceIdeal Cert.ReferenceIdeal.Read Cert.Gcn Idealize.ShloMosaic Idealize.ShloMosaic.ValueIdx
  Idealize.ShloMosaic.RowGather

abbrev fn1 {α : Type} {n : ℕ} (x : (⟨1, ![n]⟩ : Shape).Idx → α) : Fin n → α := fun a => x (ix1 a)

abbrev fn2 {α : Type} {n0 n1 : ℕ} (x : (⟨2, ![n0, n1]⟩ : Shape).Idx → α) : Fin n0 → Fin n1 → α := fun a b => x (ix2 a b)

theorem scatter_vec_at (x : S100000.Idx → EReal) (idx : IVec S1600000x1 32) (upd : S1600000.Idx → EReal) (c : Fin 100000) :
    Host.scatterAdd (F := Ideal) (φ := .f32) scatter_S100000_S1600000x1_S1600000_n_0_0_1 x idx upd (ix1 c)
      = x (ix1 c) + ∑ r : Fin 1600000, if (idx (ix2 r 0)).toInt = (c.val : ℤ) then upd (ix1 r) else 0 :=
  GraphOps.scatterAdd_vec_apply _ rfl rfl rfl rfl x idx upd c

theorem scatter_rows_at (x : S100000x128.Idx → EReal) (idx : IVec S1600000x1 32) (upd : S1600000x128.Idx → EReal)
    (c : Fin 100000) (f : Fin 128) :
    Host.scatterAdd (F := Ideal) (φ := .f32) scatter_S100000x128_S1600000x1_S1600000x128_1_0_0_1 x idx upd (ix2 c f)
      = x (ix2 c f) + ∑ r : Fin 1600000, if (idx (ix2 r 0)).toInt = (c.val : ℤ) then upd (ix2 r f) else 0 :=
  GraphOps.scatterAdd_rows_apply _ rfl rfl rfl rfl x idx upd c f

theorem gather_vec_at (x : S100000.Idx → EReal) (idx : IVec S1600000x1 32) (r : Fin 1600000) :
    Host.gather gather_S100000_S1600000x1_S1600000_n_0_n_n_0_1_1 x idx (ix1 r)
      = x (ix1 (clampRow 100000 (by decide) (idx (ix2 r 0)))) :=
  GraphOps.gather_vec_apply _ rfl rfl rfl rfl rfl x idx r (by decide)

theorem gather_rows_at (x : S100000x128.Idx → EReal) (idx : IVec S1600000x1 32) (r : Fin 1600000) (f : Fin 128) :
    Host.gather gather_S100000x128_S1600000x1_S1600000x128_1_0_n_n_0_1_1128 x idx (ix2 r f)
      = x (ix2 (clampRow 100000 (by decide) (idx (ix2 r 0))) f) :=
  RowGather.gather_rows_apply (N := 100000) (D := 128) (n := 1600000)
    gather_S100000x128_S1600000x1_S1600000x128_1_0_n_n_0_1_1128 rfl rfl rfl rfl rfl x idx r f (by decide)

theorem wrap_eq_nrm (w : BitVec 32) :
    Scalar.select (IntOp.cmpi .slt w 0#32) (IntOp.addi w 100000#32) w = nrm w :=
  GraphOps.wrap_eq_nrm' w

theorem clampRow_nrm (w : BitVec 32) : clampRow 100000 (by decide) (nrm w) = row w :=
  GraphOps.clampRow_nrm w

theorem wrapped_at (w zero hund : IVec S1600000 32) (hz : ∀ i, zero i = 0#32) (hh : ∀ i, hund i = 100000#32)
    (i : S1600000.Idx) : select (cmpi .slt w zero) (addi w hund) w i = nrm (w i) := by
  show Scalar.select (IntOp.cmpi .slt (w i) (zero i)) (IntOp.addi (w i) (hund i)) (w i) = _
  rw [hz, hh, wrap_eq_nrm]

theorem dinv_at (Z : S100000.Idx → EReal) (D : IVec S1600000x1 32) (U1 : S1600000.Idx → EReal) (V1 : S100000.Idx → EReal)
    (dst : Fin NE → BitVec 32) (hZ : ∀ i, Z i = 0) (hD : ∀ r : Fin 1600000, D (ix2 r 0) = dst r)
    (hU : ∀ i, U1 i = 1) (hV : ∀ i, V1 i = 1) (p : Fin NN) :
    Host.rsqrt (F := Ideal) (φ := .f32) (addf (Host.scatterAdd (F := Ideal) (φ := .f32) scatter_S100000_S1600000x1_S1600000_n_0_0_1 Z D U1) V1) (ix1 p)
      = dinv dst p := by
  show FloatOps.hostUnary .rsqrt (FloatOps.addf
    (Host.scatterAdd (F := Ideal) (φ := .f32) scatter_S100000_S1600000x1_S1600000_n_0_0_1 Z D U1 (ix1 p)) (V1 (ix1 p))) = _
  rw [scatter_vec_at, hZ, hV, zero_add]
  have e : (∑ r : Fin 1600000, if (D (ix2 r 0)).toInt = (p.val : ℤ) then U1 (ix1 r) else 0)
      = ∑ e : Fin NE, if hit dst e p then (1 : EReal) else 0 :=
    Finset.sum_congr rfl fun r _ => by rw [hD, hU]; exact if_congr Iff.rfl rfl rfl
  rw [e, Ideal.hostUnary_rsqrt_def, Ideal.addf_def]
  unfold dinv deg
  rfl

theorem weight_at (dv : S100000.Idx → EReal) (SW DW : IVec S1600000x1 32) (src dst : Fin NE → BitVec 32)
    (hdv : ∀ p : Fin NN, dv (ix1 p) = dinv dst p) (hSW : ∀ r : Fin 1600000, SW (ix2 r 0) = nrm (src r))
    (hDW : ∀ r : Fin 1600000, DW (ix2 r 0) = nrm (dst r)) (r : Fin NE) :
    mulf (F := Ideal) (φ := .f32) (Host.gather gather_S100000_S1600000x1_S1600000_n_0_n_n_0_1_1 dv SW)
        (Host.gather gather_S100000_S1600000x1_S1600000_n_0_n_n_0_1_1 dv DW) (ix1 r)
      = dinv dst (row (src r)) * dinv dst (row (dst r)) := by
  show FloatOps.mulf (F := Ideal) (φ := .f32) (Host.gather gather_S100000_S1600000x1_S1600000_n_0_n_n_0_1_1 dv SW (ix1 r))
    (Host.gather gather_S100000_S1600000x1_S1600000_n_0_n_n_0_1_1 dv DW (ix1 r)) = _
  rw [gather_vec_at, gather_vec_at, hSW, hDW, clampRow_nrm, clampRow_nrm, hdv, hdv, Ideal.mulf_def]

theorem layer_at (T Z : S100000x128.Idx → EReal) (D SW : IVec S1600000x1 32) (NRM : S1600000x128.Idx → EReal)
    (DD B : S100000x128.Idx → EReal) (src dst : Fin NE → BitVec 32) (h : Fin NN → Fin 128 → EReal) (b : Fin 128 → EReal)
    (hT : ∀ p q, T (ix2 p q) = h p q) (hZ : ∀ i, Z i = 0) (hD : ∀ r : Fin 1600000, D (ix2 r 0) = dst r)
    (hSW : ∀ r : Fin 1600000, SW (ix2 r 0) = nrm (src r))
    (hNRM : ∀ (r : Fin NE) (f : Fin 128), NRM (ix2 r f) = dinv dst (row (src r)) * dinv dst (row (dst r)))
    (hDD : ∀ (p : Fin NN) (q : Fin 128), DD (ix2 p q) = dinv dst p * dinv dst p)
    (hB : ∀ (p : Fin NN) (q : Fin 128), B (ix2 p q) = b q) (p : Fin NN) (q : Fin 128) :
    addf (F := Ideal) (φ := .f32) (addf (Host.scatterAdd (F := Ideal) (φ := .f32) scatter_S100000x128_S1600000x1_S1600000x128_1_0_0_1 Z D
        (mulf (Host.gather gather_S100000x128_S1600000x1_S1600000x128_1_0_n_n_0_1_1128 T SW) NRM)) (mulf T DD)) B (ix2 p q)
      = preR src dst h b p q := by
  show FloatOps.addf (FloatOps.addf
    (Host.scatterAdd (F := Ideal) (φ := .f32) scatter_S100000x128_S1600000x1_S1600000x128_1_0_0_1 Z D
      (mulf (Host.gather gather_S100000x128_S1600000x1_S1600000x128_1_0_n_n_0_1_1128 T SW) NRM) (ix2 p q))
    (FloatOps.mulf (T (ix2 p q)) (DD (ix2 p q)))) (B (ix2 p q)) = _
  rw [scatter_rows_at, hZ, hT, hDD, hB, zero_add]
  have e : (∑ r : Fin 1600000, if (D (ix2 r 0)).toInt = (p.val : ℤ)
        then (mulf (F := Ideal) (φ := .f32) (Host.gather gather_S100000x128_S1600000x1_S1600000x128_1_0_n_n_0_1_1128 T SW) NRM) (ix2 r q) else 0)
      = aggR src dst h p q := by
    unfold aggR
    refine Finset.sum_congr rfl fun r _ => ?_
    rw [hD]
    refine if_congr Iff.rfl ?_ rfl
    show FloatOps.mulf (F := Ideal) (φ := .f32) (Host.gather gather_S100000x128_S1600000x1_S1600000x128_1_0_n_n_0_1_1128 T SW (ix2 r q)) (NRM (ix2 r q)) = _
    rw [gather_rows_at, hSW, clampRow_nrm, hT, hNRM, Ideal.mulf_def]
  rw [e, Ideal.addf_def, Ideal.addf_def, Ideal.mulf_def]
  unfold preR
  rfl

theorem one_f32 : Ideal.ofBits .f32 0x3F800000#32 = (1 : EReal) := by
  simp [Ideal.ofBits, Ideal.ieee, -EReal.coe_mul]; norm_num

section
variable (x0 : (⟨S100000x64, .f32⟩ : BufTy).Contents (Elt Ideal)) (x1 x2 : (⟨S1600000, .i32⟩ : BufTy).Contents (Elt Ideal))
  (x4 : (⟨S64x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))

theorem zero_nodes (i : S100000.Idx) : val_main_v2 (F := Ideal) i = 0 := by
  rw [val_main_v2_apply, val_main_cst_0_apply]; exact Ideal.ofBits_zero_f32
theorem one_edges (i : S1600000.Idx) : val_main_v1 (F := Ideal) i = 1 := by
  rw [val_main_v1_apply, val_main_cst_apply]; exact one_f32
theorem one_nodes (i : S100000.Idx) : val_main_v5 (F := Ideal) i = 1 := by
  rw [val_main_v5_apply, val_main_cst_1_apply]; exact one_f32
theorem dst_col_deg (r : Fin 1600000) : val_main_v3 (F := Ideal) x2 (ix2 r 0) = x2 (ix1 r) := by
  rw [val_main_v3_apply]
  exact congrArg x2 (funext fun a => by match a with | ⟨0, _⟩ => rfl)

theorem dinv_eq (p : Fin NN) : val_main_v7 (F := Ideal) x2 (ix1 p) = dinv (fn1 x2) p := by
  unfold val_main_v7 val_main_v6 val_main_v4
  exact dinv_at _ _ _ _ (fn1 x2) zero_nodes (dst_col_deg x2) one_edges one_nodes p

theorem dinv_eq2 (p : Fin NN) : val_main_v52 (F := Ideal) x2 (ix1 p) = dinv (fn1 x2) p := dinv_eq x2 p
theorem dinv_eq3 (p : Fin NN) : val_main_v97 (F := Ideal) x2 (ix1 p) = dinv (fn1 x2) p := dinv_eq x2 p

theorem src_word_w (r : Fin 1600000) : val_main_v13 (F := Ideal) x1 (ix2 r 0) = nrm (fn1 x1 r) := by
  rw [val_main_v13_apply]
  have e : idx_main_v13 (ix2 r (0 : Fin 1)) = ix1 r := funext fun a => by match a with | ⟨0, _⟩ => rfl
  rw [e]
  unfold val_main_v12 val_main_v9 val_main_v11
  exact wrapped_at x1 _ _ (fun i => by rw [val_main_v8_apply]; rfl) (fun i => by rw [val_main_v10_apply]; rfl) _
theorem dst_word_w (r : Fin 1600000) : val_main_v20 (F := Ideal) x2 (ix2 r 0) = nrm (fn1 x2 r) := by
  rw [val_main_v20_apply]
  have e : idx_main_v20 (ix2 r (0 : Fin 1)) = ix1 r := funext fun a => by match a with | ⟨0, _⟩ => rfl
  rw [e]
  unfold val_main_v19 val_main_v16 val_main_v18
  exact wrapped_at x2 _ _ (fun i => by rw [val_main_v15_apply]; rfl) (fun i => by rw [val_main_v17_apply]; rfl) _
theorem src_word_t (r : Fin 1600000) : val_main_v28 (F := Ideal) x1 (ix2 r 0) = nrm (fn1 x1 r) := by
  rw [val_main_v28_apply]
  have e : idx_main_v28 (ix2 r (0 : Fin 1)) = ix1 r := funext fun a => by match a with | ⟨0, _⟩ => rfl
  rw [e]
  unfold val_main_v27 val_main_v24 val_main_v26
  exact wrapped_at x1 _ _ (fun i => by rw [val_main_v23_apply]; rfl) (fun i => by rw [val_main_v25_apply]; rfl) _

theorem weight_eq (r : Fin NE) (f : Fin 128) :
    val_main_v31 (F := Ideal) x1 x2 (ix2 r f) = dinv (fn1 x2) (row (fn1 x1 r)) * dinv (fn1 x2) (row (fn1 x2 r)) := by
  rw [val_main_v31_apply, val_main_v30_apply]
  have e : idx_main_v30 (idx_main_v31 (ix2 r f)) = ix1 r := funext fun a => by match a with | ⟨0, _⟩ => rfl
  rw [e]
  unfold val_main_v22 val_main_v14 val_main_v21
  exact weight_at _ _ _ (fn1 x1) (fn1 x2) (dinv_eq x2) (src_word_w x1) (dst_word_w x2) r

theorem zero_table (i : S100000x128.Idx) : val_main_v33 (F := Ideal) i = 0 := by
  rw [val_main_v33_apply, val_main_cst_7_apply]; exact Ideal.ofBits_zero_f32
theorem dst_col (r : Fin 1600000) : val_main_v34 (F := Ideal) x2 (ix2 r 0) = fn1 x2 r := by
  rw [val_main_v34_apply]
  exact congrArg x2 (funext fun a => by match a with | ⟨0, _⟩ => rfl)
theorem self_weight (p : Fin NN) (q : Fin 128) :
    val_main_v38 (F := Ideal) x2 (ix2 p q) = dinv (fn1 x2) p * dinv (fn1 x2) p := by
  rw [val_main_v38_apply, val_main_v37_apply]
  have e : idx_main_v37 (idx_main_v38 (ix2 p q)) = ix1 p := funext fun a => by match a with | ⟨0, _⟩ => rfl
  rw [e, val_main_v36_apply, dinv_eq]
  rfl
theorem bias_at (b : (⟨S128, .f32⟩ : BufTy).Contents (Elt Ideal)) (p : Fin NN) (q : Fin 128) :
    val_main_v42 (F := Ideal) b (ix2 p q) = fn1 b q := by
  rw [val_main_v42_apply, val_main_v41_apply]
  exact congrArg b (funext fun a => by match a with | ⟨0, _⟩ => rfl)

theorem layerR_at (T : S100000x128.Idx → EReal) (b : (⟨S128, .f32⟩ : BufTy).Contents (Elt Ideal))
    (h : Fin NN → Fin 128 → EReal) (hT : ∀ p q, T (ix2 p q) = h p q) (p : Fin NN) (q : Fin 128) :
    addf (F := Ideal) (φ := .f32) (addf (Host.scatterAdd (F := Ideal) (φ := .f32) scatter_S100000x128_S1600000x1_S1600000x128_1_0_0_1
        (val_main_v33 (F := Ideal)) (val_main_v34 (F := Ideal) x2)
        (mulf (Host.gather gather_S100000x128_S1600000x1_S1600000x128_1_0_n_n_0_1_1128 T (val_main_v28 (F := Ideal) x1))
          (val_main_v31 (F := Ideal) x1 x2))) (mulf T (val_main_v38 (F := Ideal) x2))) (val_main_v42 (F := Ideal) b) (ix2 p q)
      = preR (fn1 x1) (fn1 x2) h (fn1 b) p q :=
  layer_at T _ _ _ _ _ _ (fn1 x1) (fn1 x2) h (fn1 b) hT zero_table (dst_col x2) (src_word_t x1) (weight_eq x1 x2)
    (self_weight x2) (bias_at b) p q

theorem proj1_eq (p : Fin NN) (q : Fin 128) : val_main_v0 (F := Ideal) x0 x4 (ix2 p q) = proj (fn2 x0) (fn2 x4) p q := by
  rw [val_main_v0_apply]
  unfold proj
  refine Finset.sum_congr rfl fun k _ => ?_
  have el : lidx_main_v0 (ix2 p q) k = ix2 p k := funext fun a => by match a with | ⟨0, _⟩ => rfl | ⟨1, _⟩ => rfl
  have er : ridx_main_v0 (ix2 p q) k = ix2 k q := funext fun a => by match a with | ⟨0, _⟩ => rfl | ⟨1, _⟩ => rfl
  rw [el, er]

theorem layer1_eq (p : Fin NN) (q : Fin 128) :
    val_main_v43 (F := Ideal) x0 x1 x2 x4 x5 (ix2 p q) = preR (fn1 x1) (fn1 x2) (proj (fn2 x0) (fn2 x4)) (fn1 x5) p q := by
  unfold val_main_v43 val_main_v40 val_main_v35 val_main_v39 val_main_v32 val_main_v29
  exact layerR_at x1 x2 _ x5 _ (proj1_eq x0 x4) p q
theorem relu1_eq (p : Fin NN) (q : Fin 128) :
    val_main_v44 (F := Ideal) x0 x1 x2 x4 x5 (ix2 p q) = z1R (fn1 x1) (fn1 x2) (fn2 x0) (fn2 x4) (fn1 x5) p q := by
  rw [val_main_v44_apply, layer1_eq, val_main_call0_v0_apply, val_main_call0_cst_apply]
  show max _ (Ideal.ofBits .f32 0x00000000#32) = _
  rw [Ideal.ofBits_zero_f32]
  rfl

theorem proj2_eq (p : Fin NN) (q : Fin 128) :
    val_main_v45 (F := Ideal) x0 x1 x2 x4 x5 x6 (ix2 p q)
      = proj (z1R (fn1 x1) (fn1 x2) (fn2 x0) (fn2 x4) (fn1 x5)) (fn2 x6) p q := by
  rw [val_main_v45_apply]
  unfold proj
  refine Finset.sum_congr rfl fun k _ => ?_
  have el : lidx_main_v45 (ix2 p q) k = ix2 p k := funext fun a => by match a with | ⟨0, _⟩ => rfl | ⟨1, _⟩ => rfl
  have er : ridx_main_v45 (ix2 p q) k = ix2 k q := funext fun a => by match a with | ⟨0, _⟩ => rfl | ⟨1, _⟩ => rfl
  rw [el, er, relu1_eq]
theorem layer2_eq (p : Fin NN) (q : Fin 128) :
    val_main_v88 (F := Ideal) x0 x1 x2 x4 x5 x6 x7 (ix2 p q)
      = preR (fn1 x1) (fn1 x2) (proj (z1R (fn1 x1) (fn1 x2) (fn2 x0) (fn2 x4) (fn1 x5)) (fn2 x6)) (fn1 x7) p q := by
  unfold val_main_v88 val_main_v85 val_main_v80 val_main_v84 val_main_v77 val_main_v74
  exact layerR_at x1 x2 _ x7 _ (proj2_eq x0 x1 x2 x4 x5 x6) p q
theorem relu2_eq (p : Fin NN) (q : Fin 128) :
    val_main_v89 (F := Ideal) x0 x1 x2 x4 x5 x6 x7 (ix2 p q)
      = z2R (fn1 x1) (fn1 x2) (fn2 x0) (fn2 x4) (fn1 x5) (fn2 x6) (fn1 x7) p q := by
  rw [val_main_v89_apply, layer2_eq, val_main_call1_v0_apply, val_main_call1_cst_apply]
  show max _ (Ideal.ofBits .f32 0x00000000#32) = _
  rw [Ideal.ofBits_zero_f32]
  rfl

theorem proj3_eq (p : Fin NN) (q : Fin 128) :
    val_main_v90 (F := Ideal) x0 x1 x2 x4 x5 x6 x7 x8 (ix2 p q)
      = proj (z2R (fn1 x1) (fn1 x2) (fn2 x0) (fn2 x4) (fn1 x5) (fn2 x6) (fn1 x7)) (fn2 x8) p q := by
  rw [val_main_v90_apply]
  unfold proj
  refine Finset.sum_congr rfl fun k _ => ?_
  have el : lidx_main_v90 (ix2 p q) k = ix2 p k := funext fun a => by match a with | ⟨0, _⟩ => rfl | ⟨1, _⟩ => rfl
  have er : ridx_main_v90 (ix2 p q) k = ix2 k q := funext fun a => by match a with | ⟨0, _⟩ => rfl | ⟨1, _⟩ => rfl
  rw [el, er, relu2_eq]
theorem layer3_eq (p : Fin NN) (q : Fin 128) :
    val_main_v133 (F := Ideal) x0 x1 x2 x4 x5 x6 x7 x8 x9 (ix2 p q)
      = h3R (fn1 x1) (fn1 x2) (fn2 x0) (fn2 x4) (fn1 x5) (fn2 x6) (fn1 x7) (fn2 x8) (fn1 x9) p q := by
  unfold val_main_v133 val_main_v130 val_main_v125 val_main_v129 val_main_v122 val_main_v119
  exact layerR_at x1 x2 _ x9 _ (proj3_eq x0 x1 x2 x4 x5 x6 x7 x8) p q

end

end Cert.ReferenceIdeal.RefValue

end
-- ==== Proof.RefValue.lean ====
import proofs.«428218_j42571715838145_2_alg».proof.Proof.Gen.ReferenceIdeal.Run
import proofs.«428218_j42571715838145_2_alg».proof.Proof.Gen.ReferenceIdeal.Read
import proofs.«428218_j42571715838145_2_alg».proof.Proof.RefPool
import proofs.«428218_j42571715838145_2_alg».proof.Proof.RefLayers

noncomputable section

namespace Cert.ReferenceIdeal.RefValue

open Cert.ReferenceIdeal Cert.ReferenceIdeal.Gen Cert.ReferenceIdeal.Read Idealize.ShloMosaic Idealize.ShloMosaic.ValueIdx

variable (x0 : (⟨S100000x64, .f32⟩ : BufTy).Contents (Elt Ideal)) (x1 x2 : (⟨S1600000, .i32⟩ : BufTy).Contents (Elt Ideal))
  (x3 : (⟨S100000, .i32⟩ : BufTy).Contents (Elt Ideal)) (x4 : (⟨S64x128, .f32⟩ : BufTy).Contents (Elt Ideal))
  (x5 : (⟨S128, .f32⟩ : BufTy).Contents (Elt Ideal)) (x6 : (⟨S128x128, .f32⟩ : BufTy).Contents (Elt Ideal))
  (x7 : (⟨S128, .f32⟩ : BufTy).Contents (Elt Ideal)) (x8 : (⟨S128x128, .f32⟩ : BufTy).Contents (Elt Ideal))
  (x9 : (⟨S128, .f32⟩ : BufTy).Contents (Elt Ideal)) (x10 : (⟨S128x1, .f32⟩ : BufTy).Contents (Elt Ideal))
  (x11 : (⟨S1, .f32⟩ : BufTy).Contents (Elt Ideal))

theorem result_eq : ∀ (g : Fin 1000) (o : Fin 1),
    val_main_v149 (F := Ideal) x0 x1 x2 x3 x4 x5 x6 x7 x8 x9 x10 x11 (ix2 g o)
      = Cert.Gcn.outR (fn1 x1) (fn1 x2) (fn1 x3) (fn2 x0) (fn2 x4) (fn1 x5) (fn2 x6) (fn1 x7) (fn2 x8) (fn1 x9) (fn2 x10) (fn1 x11) g o := by
  intro g o
  unfold Cert.Gcn.outR
  exact pool_eq x0 x1 x2 x3 x4 x5 x6 x7 x8 x9 x10 x11 _ (layer3_eq x0 x1 x2 x4 x5 x6 x7 x8 x9) g o

end Cert.ReferenceIdeal.RefValue

end
-- ==== Proof.Algebra.lean ====
import proofs.«428218_j42571715838145_2_alg».proof.Proof.Spec
import Mathlib.Data.EReal.Basic
import Mathlib.Algebra.BigOperators.Ring.Finset
import Mathlib.Tactic.Linarith
import Mathlib.Tactic.Ring

noncomputable section

namespace Cert.Gcn

open Idealize.ShloMosaic

def IsR (a : EReal) : Prop := ∃ r : ℝ, a = (r : EReal)

theorem isR_coe (r : ℝ) : IsR (r : EReal) := ⟨r, rfl⟩
theorem isR_zero : IsR (0 : EReal) := ⟨0, rfl⟩
theorem isR_one : IsR (1 : EReal) := ⟨1, rfl⟩

theorem isR_add {a b : EReal} (ha : IsR a) (hb : IsR b) : IsR (a + b) := by
  obtain ⟨r, rfl⟩ := ha; obtain ⟨s, rfl⟩ := hb
  exact ⟨r + s, (EReal.coe_add r s).symm⟩

theorem isR_mul {a b : EReal} (ha : IsR a) (hb : IsR b) : IsR (a * b) := by
  obtain ⟨r, rfl⟩ := ha; obtain ⟨s, rfl⟩ := hb
  exact ⟨r * s, (EReal.coe_mul r s).symm⟩

theorem isR_ite {c : Prop} [Decidable c] {a b : EReal} (ha : IsR a) (hb : IsR b) : IsR (if c then a else b) := by
  split_ifs <;> assumption

theorem isR_max {a b : EReal} (ha : IsR a) (hb : IsR b) : IsR (max a b) := by
  rcases max_choice a b with h | h <;> rw [h] <;> assumption

theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem isR_sum {ι : Type*} (s : Finset ι) (f : ι → EReal) (hf : ∀ i, IsR (f i)) : IsR (∑ i ∈ s, f i) := by
  choose g hg using hf
  exact ⟨∑ i ∈ s, g i, by rw [← coe_sum]; exact Finset.sum_congr rfl (fun i _ => hg i)⟩

theorem coe_ite (c : Prop) [Decidable c] (a b : ℝ) :
    ((if c then a else b : ℝ) : EReal) = if c then (a : EReal) else (b : EReal) := by
  split_ifs <;> rfl

theorem count_add_one_eq_coe {ι : Type*} (s : Finset ι) (c : ι → Prop) [DecidablePred c] :
    ∃ r : ℝ, 1 ≤ r ∧ (∑ e ∈ s, if c e then (1 : EReal) else 0) + 1 = (r : EReal) := by
  refine ⟨(∑ e ∈ s, if c e then (1 : ℝ) else 0) + 1, ?_, ?_⟩
  · have : 0 ≤ ∑ e ∈ s, if c e then (1 : ℝ) else 0 :=
      Finset.sum_nonneg (fun e _ => by split_ifs <;> norm_num)
    linarith
  · rw [EReal.coe_add, ← coe_sum, EReal.coe_one]
    simp only [coe_ite, EReal.coe_one, EReal.coe_zero]

theorem deg_eq_coe (dst : Fin NE → BitVec 32) (d : Fin NN) : ∃ r : ℝ, 1 ≤ r ∧ deg dst d = (r : EReal) :=
  count_add_one_eq_coe Finset.univ (fun e => hit dst e d)

theorem isR_rsqrt {r : ℝ} (hr : 0 < r) : IsR (Ideal.rsqrt (r : EReal)) := by
  rw [Ideal.rsqrt_coe, if_neg (not_lt.mpr hr.le), if_neg hr.ne']
  exact isR_coe _

theorem isR_dinv (dst : Fin NE → BitVec 32) (d : Fin NN) : IsR (dinv dst d) := by
  obtain ⟨r, hr, h⟩ := deg_eq_coe dst d
  unfold dinv
  rw [h]
  exact isR_rsqrt (by linarith)

theorem row_of_toInt (x : BitVec 32) (d : Fin NN) (h : x.toInt = (d.val : ℤ)) : row x = d := by
  have hd : d.val < 100000 := d.isLt
  have hn : nrm x = x := by
    unfold nrm
    rw [if_neg]
    simp only [BitVec.slt, BitVec.toInt_zero, decide_eq_true_eq, not_lt]
    omega
  apply Fin.ext
  show min (nrm x).toInt.toNat (100000 - 1) = d.val
  rw [hn, h]
  omega

theorem row_of_hit {dst : Fin NE → BitVec 32} {e : Fin NE} {d : Fin NN} (h : hit dst e d) : row (dst e) = d :=
  row_of_toInt _ _ h

theorem scaled_sum_eq {ι : Type*} (s : Finset ι) (c : ι → Prop) [DecidablePred c] (a w : ι → ℝ) (t δ : ℝ) :
    (δ : EReal) * ((∑ e ∈ s, if c e then (a e : EReal) * (w e : EReal) else 0) + (t : EReal) * (δ : EReal))
      = (∑ e ∈ s, if c e then (a e : EReal) * ((w e : EReal) * (δ : EReal)) else 0)
        + (t : EReal) * ((δ : EReal) * (δ : EReal)) := by
  have hL : ∀ e, (if c e then (a e : EReal) * (w e : EReal) else 0) = ((if c e then a e * w e else 0 : ℝ) : EReal) := by
    intro e; rw [coe_ite, EReal.coe_mul, EReal.coe_zero]
  have hR : ∀ e, (if c e then (a e : EReal) * ((w e : EReal) * (δ : EReal)) else 0)
      = ((if c e then a e * (w e * δ) else 0 : ℝ) : EReal) := by
    intro e; rw [coe_ite, EReal.coe_mul, EReal.coe_mul, EReal.coe_zero]
  rw [Finset.sum_congr rfl (fun e _ => hL e), Finset.sum_congr rfl (fun e _ => hR e), coe_sum, coe_sum,
    ← EReal.coe_mul, ← EReal.coe_mul, ← EReal.coe_mul, ← EReal.coe_add, ← EReal.coe_add, ← EReal.coe_mul,
    EReal.coe_eq_coe_iff, mul_add, Finset.mul_sum]
  congr 1
  · refine Finset.sum_congr rfl (fun e _ => ?_)
    split_ifs <;> ring
  · ring

section
variable (src dst : Fin NE → BitVec 32)

theorem preK_scaled_eq_preR (h : Fin NN → Fin 128 → EReal) (hh : ∀ p q, IsR (h p q)) (b : Fin 128 → EReal)
    (d : Fin NN) (j : Fin 128) :
    preK src dst (fun p q => h p q * dinv dst p) b d j = preR src dst h b d j := by
  choose rh hrh using hh
  choose rd hrd using isR_dinv dst
  unfold preK preR aggK aggR
  beta_reduce
  have hrow : ∀ e : Fin NE,
      (if hit dst e d then h (row (src e)) j * (dinv dst (row (src e)) * dinv dst (row (dst e))) else 0)
        = if hit dst e d then (rh (row (src e)) j : EReal) * ((rd (row (src e)) : EReal) * (rd d : EReal)) else 0 := by
    intro e
    split_ifs with he
    · rw [row_of_hit he, hrh, hrd, hrd]
    · rfl
  have hsrc : ∀ e : Fin NE,
      (if hit dst e d then h (row (src e)) j * dinv dst (row (src e)) else 0)
        = if hit dst e d then (rh (row (src e)) j : EReal) * (rd (row (src e)) : EReal) else 0 := by
    intro e
    split_ifs with he
    · rw [hrh, hrd]
    · rfl
  rw [Finset.sum_congr rfl (fun e _ => hrow e), Finset.sum_congr rfl (fun e _ => hsrc e), hrh d j, hrd d,
    scaled_sum_eq]

theorem isR_proj {K : ℕ} (z : Fin NN → Fin K → EReal) (W : Fin K → Fin 128 → EReal)
    (hz : ∀ p k, IsR (z p k)) (hW : ∀ k q, IsR (W k q)) (p : Fin NN) (q : Fin 128) : IsR (proj z W p q) :=
  isR_sum _ _ (fun k => isR_mul (hz p k) (hW k q))

theorem isR_preR (h : Fin NN → Fin 128 → EReal) (hh : ∀ p q, IsR (h p q)) (b : Fin 128 → EReal)
    (hb : ∀ q, IsR (b q)) (d : Fin NN) (j : Fin 128) : IsR (preR src dst h b d j) := by
  unfold preR aggR
  refine isR_add (isR_add (isR_sum _ _ (fun e => isR_ite ?_ isR_zero)) ?_) (hb j)
  · exact isR_mul (hh _ _) (isR_mul (isR_dinv dst _) (isR_dinv dst _))
  · exact isR_mul (hh _ _) (isR_mul (isR_dinv dst _) (isR_dinv dst _))

theorem isR_relu (f : Fin NN → Fin 128 → EReal) (hf : ∀ p q, IsR (f p q)) (p : Fin NN) (q : Fin 128) :
    IsR (relu f p q) := isR_max (hf p q) isR_zero

theorem layer_eq {K : ℕ} (z : Fin NN → Fin K → EReal) (W : Fin K → Fin 128 → EReal)
    (hz : ∀ p k, IsR (z p k)) (hW : ∀ k q, IsR (W k q)) (b : Fin 128 → EReal) :
    preK src dst (hsK dst z W) b = preR src dst (proj z W) b := by
  funext d j
  exact preK_scaled_eq_preR src dst (proj z W) (isR_proj z W hz hW) b d j

variable (x : Fin NN → Fin 64 → EReal) (W1 : Fin 64 → Fin 128 → EReal) (b1 : Fin 128 → EReal)
  (W2 : Fin 128 → Fin 128 → EReal) (b2 : Fin 128 → EReal) (W3 : Fin 128 → Fin 128 → EReal) (b3 : Fin 128 → EReal)

theorem z1K_eq_z1R (hx : ∀ p k, IsR (x p k)) (hW1 : ∀ k q, IsR (W1 k q)) :
    z1K src dst x W1 b1 = z1R src dst x W1 b1 := by
  unfold z1K z1R hs1K
  rw [layer_eq src dst x W1 hx hW1 b1]

theorem isR_z1R (hx : ∀ p k, IsR (x p k)) (hW1 : ∀ k q, IsR (W1 k q)) (hb1 : ∀ q, IsR (b1 q))
    (p : Fin NN) (q : Fin 128) : IsR (z1R src dst x W1 b1 p q) :=
  isR_relu _ (isR_preR src dst _ (isR_proj x W1 hx hW1) b1 hb1) p q

theorem z2K_eq_z2R (hx : ∀ p k, IsR (x p k)) (hW1 : ∀ k q, IsR (W1 k q)) (hb1 : ∀ q, IsR (b1 q))
    (hW2 : ∀ k q, IsR (W2 k q)) :
    z2K src dst x W1 b1 W2 b2 = z2R src dst x W1 b1 W2 b2 := by
  unfold z2K z2R hs2K
  rw [z1K_eq_z1R src dst x W1 b1 hx hW1,
    layer_eq src dst _ W2 (isR_z1R src dst x W1 b1 hx hW1 hb1) hW2 b2]

theorem isR_z2R (hx : ∀ p k, IsR (x p k)) (hW1 : ∀ k q, IsR (W1 k q)) (hb1 : ∀ q, IsR (b1 q))
    (hW2 : ∀ k q, IsR (W2 k q)) (hb2 : ∀ q, IsR (b2 q)) (p : Fin NN) (q : Fin 128) :
    IsR (z2R src dst x W1 b1 W2 b2 p q) :=
  isR_relu _ (isR_preR src dst _ (isR_proj _ W2 (isR_z1R src dst x W1 b1 hx hW1 hb1) hW2) b2 hb2) p q

end

theorem h3K_eq_h3R (src dst : Fin NE → BitVec 32) (x : Fin NN → Fin 64 → EReal) (W1 : Fin 64 → Fin 128 → EReal)
    (b1 : Fin 128 → EReal) (W2 : Fin 128 → Fin 128 → EReal) (b2 : Fin 128 → EReal)
    (W3 : Fin 128 → Fin 128 → EReal) (b3 : Fin 128 → EReal)
    (hx : ∀ p k, ∃ r : ℝ, x p k = (r : EReal)) (hW1 : ∀ k q, ∃ r : ℝ, W1 k q = (r : EReal))
    (hb1 : ∀ q, ∃ r : ℝ, b1 q = (r : EReal)) (hW2 : ∀ k q, ∃ r : ℝ, W2 k q = r) (hb2 : ∀ q, ∃ r : ℝ, b2 q = r)
    (hW3 : ∀ k q, ∃ r : ℝ, W3 k q = r) (hb3 : ∀ q, ∃ r : ℝ, b3 q = r) :
    h3K src dst x W1 b1 W2 b2 W3 b3 = h3R src dst x W1 b1 W2 b2 W3 b3 := by
  unfold h3K h3R hs3K
  rw [z2K_eq_z2R src dst x W1 b1 W2 b2 hx hW1 hb1 hW2,
    layer_eq src dst _ W3 (isR_z2R src dst x W1 b1 W2 b2 hx hW1 hb1 hW2 hb2) hW3 b3]

theorem outK_eq_outR (src dst : Fin NE → BitVec 32) (batch : Fin NN → BitVec 32) (x : Fin NN → Fin 64 → EReal)
    (W1 : Fin 64 → Fin 128 → EReal) (b1 : Fin 128 → EReal) (W2 : Fin 128 → Fin 128 → EReal) (b2 : Fin 128 → EReal)
    (W3 : Fin 128 → Fin 128 → EReal) (b3 : Fin 128 → EReal) (Wl : Fin 128 → Fin 1 → EReal) (bl : Fin 1 → EReal)
    (hx : ∀ p k, ∃ r : ℝ, x p k = (r : EReal)) (hW1 : ∀ k q, ∃ r : ℝ, W1 k q = (r : EReal))
    (hb1 : ∀ q, ∃ r : ℝ, b1 q = (r : EReal)) (hW2 : ∀ k q, ∃ r : ℝ, W2 k q = r) (hb2 : ∀ q, ∃ r : ℝ, b2 q = r)
    (hW3 : ∀ k q, ∃ r : ℝ, W3 k q = r) (hb3 : ∀ q, ∃ r : ℝ, b3 q = r) :
    outK src dst batch x W1 b1 W2 b2 W3 b3 Wl bl = outR src dst batch x W1 b1 W2 b2 W3 b3 Wl bl := by
  unfold outK outR
  rw [h3K_eq_h3R src dst x W1 b1 W2 b2 W3 b3 hx hW1 hb1 hW2 hb2 hW3 hb3]

end Cert.Gcn

end
-- ==== Proof.PreReal.lean ====
import proofs.«428218_j42571715838145_2_alg».proof.Defs
import proofs.«428218_j42571715838145_2_alg».proof.Proof.Gen.Pre_finite_inputs
import Idealize.ShloMosaic.Lib.ReduceAll

noncomputable section

namespace Cert.Proof.PreReal

open Idealize.ShloMosaic Idealize.SL.Sem

instance : Subsingleton Cert.Pre_finite_inputs.S_.Idx := ⟨fun a b => funext fun d => d.elim0⟩

theorem real_of_abs_lt_top (x : EReal) (h : max x (-x) < ⊤) : ∃ r : ℝ, x = (r : EReal) := by
  induction x using EReal.rec with
  | bot => simp at h
  | coe r => exact ⟨r, rfl⟩
  | top => simp at h

theorem real_of_mask {s : Shape} (hb : Cert.Pre_finite_inputs.S_.BroadcastsInDim s (![] : Fin 0 → Fin s.rank))
    (v : FVec Ideal s .f32) (i : s.Idx)
    (h : cmpf .olt (Host.absf v) (broadcastInDim s ![] hb (constant Cert.Pre_finite_inputs.S_ .f32 0x7F800000#32)) i = 1#1) :
    ∃ r : ℝ, v i = (r : EReal) := by
  apply real_of_abs_lt_top
  have h' : Ideal.cmp .olt (max (v i) (-(v i))) (Ideal.ofBits .f32 0x7F800000#32) = 1#1 := h
  have ht : Ideal.ofBits .f32 0x7F800000#32 = (⊤ : EReal) := by simp [Ideal.ofBits, Ideal.ieee]
  rw [ht] at h'
  unfold Ideal.cmp at h'
  by_contra hn
  simp [hn] at h'

theorem real_of_pre [hKernelIdeal : Cert.KernelIdeal.Facts] [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal))
    ∧ (∀ i, ∃ r : ℝ, m ((c.tc : Thread Cert.KernelIdeal.nD Cert.KernelIdeal.τ).loc Cert.KernelIdeal.main_arg9) i = (r : EReal))
    ∧ (∀ i, ∃ r : ℝ, m ((c.tc : Thread Cert.KernelIdeal.nD Cert.KernelIdeal.τ).loc Cert.KernelIdeal.main_arg10) i = (r : EReal))
    ∧ (∀ i, ∃ r : ℝ, m ((c.tc : Thread Cert.KernelIdeal.nD Cert.KernelIdeal.τ).loc Cert.KernelIdeal.main_arg11) i = (r : EReal)) := by
  have h0 := congrFun (h c) (fun a => a.elim0 : Cert.Pre_finite_inputs.S_.Idx)
  dsimp only [Cert.Pre_finite_inputs.fn, Cert.Pre_finite_inputs.fn_part1, Cert.Pre_finite_inputs.fn_part2] at h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨e0, e4⟩ := IntOp.andi_eq_one.1 h0
  exact ⟨fun i => real_of_mask _ _ i (Host.reduce_andi_all _ _ _ _ _ e0 i),
    fun i => real_of_mask _ _ i (Host.reduce_andi_all _ _ _ _ _ e4 i),
    fun i => real_of_mask _ _ i (Host.reduce_andi_all _ _ _ _ _ e5 i),
    fun i => real_of_mask _ _ i (Host.reduce_andi_all _ _ _ _ _ e6 i),
    fun i => real_of_mask _ _ i (Host.reduce_andi_all _ _ _ _ _ e7 i),
    fun i => real_of_mask _ _ i (Host.reduce_andi_all _ _ _ _ _ e8 i),
    fun i => real_of_mask _ _ i (Host.reduce_andi_all _ _ _ _ _ e9 i),
    fun i => real_of_mask _ _ i (Host.reduce_andi_all _ _ _ _ _ e10 i),
    fun i => real_of_mask _ _ i (Host.reduce_andi_all _ _ _ _ _ e11 i)⟩

end Cert.Proof.PreReal

end
-- ==== Proof.lean ====
import proofs.«428218_j42571715838145_2_alg».proof.Defs
import proofs.«428218_j42571715838145_2_alg».proof.Proof.Gen.Kernel
import proofs.«428218_j42571715838145_2_alg».proof.Proof.Gen.KernelIdeal
import proofs.«428218_j42571715838145_2_alg».proof.Proof.Gen.ReferenceIdeal
import proofs.«428218_j42571715838145_2_alg».proof.Proof.Gen.Pre_finite_inputs
import proofs.«428218_j42571715838145_2_alg».proof.Proof.Run
import proofs.«428218_j42571715838145_2_alg».proof.Proof.BitsRun
import proofs.«428218_j42571715838145_2_alg».proof.Proof.KValue
import proofs.«428218_j42571715838145_2_alg».proof.Proof.RefValue
import proofs.«428218_j42571715838145_2_alg».proof.Proof.Algebra
import proofs.«428218_j42571715838145_2_alg».proof.Proof.PreReal
import Idealize.ShloMosaic.Adequacy
import Idealize.ShloMosaic.Init

noncomputable section

namespace Cert.Proof

open Idealize.ShloMosaic Idealize.ShloMosaic.TcCoe Idealize.ShloMosaic.ValueIdx Idealize.SL.Sem

attribute [local instance] Cert.Kernel.Gen.facts Cert.KernelIdeal.Gen.facts Cert.ReferenceIdeal.Gen.facts Cert.Pre_finite_inputs.Gen.facts

theorem frame_k : Cert.frame_Kernel := fun m ρ _ =>
  (θ_run Cert.Kernel.defs _ _).mono (fun _ h c => (h c).2) (Cert.Kernel.Hand.run_result (F := Bits) m ρ)
theorem frame_ki : Cert.frame_KernelIdeal := fun m ρ _ =>
  (θ_run Cert.KernelIdeal.defs _ _).mono (fun _ h c => (h c).2) (Cert.KernelIdeal.Hand.run_result (F := Ideal) m ρ)
theorem frame_ri : Cert.frame_ReferenceIdeal := fun m ρ _ =>
  (θ_run Cert.ReferenceIdeal.defs _ _).mono (fun _ h c => (h c).2) (Cert.ReferenceIdeal.Value.run (F := Ideal) m ρ)

/-- Both programs end with Spec's function of the arguments; the kernel's arrangement of a layer and the reference's
    agree on finite inputs, where multiplication distributes over the finite edge sum. -/
theorem algebraic : Cert.algebraic_KernelIdeal_ReferenceIdeal := by
  intro m ρ m' ρ' hpre hagree
  refine ⟨fun c => (Cert.KernelIdeal.Hand.dat3 (F := Ideal) (Cert.KernelIdeal.Hand.VV7 m ρ) c).arrAt 7 Cert.KernelIdeal.cfg3.N,
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hx, hW1, hb1, hW2, hb2, hW3, hb3, -, -⟩ := Cert.Proof.PreReal.real_of_pre m hpre c
  obtain ⟨e0, e1, e2, e3, e4, e5, e6, e7, e8, e9, e10, e11⟩ := hagree c
  rw [Cert.ReferenceIdeal.Read.val_main_v149_eq, e0, e1, e2, e3, e4, e5, e6, e7, e8, e9, e10, e11]
  funext i
  obtain ⟨g, o, rfl⟩ : ∃ (g : Fin 1000) (o : Fin 1), i = ix2 g o := ⟨i 0, i 1, eq_ix2 i⟩
  rw [Cert.ReferenceIdeal.RefValue.result_eq]
  refine Eq.trans ?_ (Cert.KernelIdeal.HandValue.result_eq m ρ c g o).symm
  exact (congrFun (congrFun (Cert.Gcn.outK_eq_outR _ _ _ _ _ _ _ _ _ _ _ _
    (fun p k => hx (ix2 p k)) (fun k q => hW1 (ix2 k q)) (fun q => hb1 (ix1 q)) (fun k q => hW2 (ix2 k q)) (fun q => hb2 (ix1 q))
    (fun k q => hW3 (ix2 k q)) (fun q => hb3 (ix1 q))) g) o).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
